-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v11)) (v6 : (c : Dev Cert.KernelIdeal.nD) → Buf (Elt Ideal) ((c.tc : Thread Cert.KernelIdeal.nD Cert.KernelIdeal.τ).loc Cert.KernelIdeal.main_v12)) (v7 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_v12) = v6 c
          ∧ r.2.mem ((c.tc : Thread Cert.KernelIdeal.nD Cert.KernelIdeal.τ).loc Cert.KernelIdeal.main_v13) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_v32) = v6 c
          ∧ r.2.mem ((c.tc : Thread Cert.ReferenceIdeal.nD Cert.ReferenceIdeal.τ).loc Cert.ReferenceIdeal.main_v38) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x384 : Shape := ⟨2, ![2048, 384]⟩
abbrev S384 : Shape := ⟨1, ![384]⟩
abbrev S2048x64 : Shape := ⟨2, ![2048, 64]⟩
abbrev S64 : Shape := ⟨1, ![64]⟩
abbrev S14336x64 : Shape := ⟨2, ![14336, 64]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x384 : S_.BroadcastsInDim S2048x384 (![] : Fin 0 → Fin S2048x384.rank)
  reducesTo_S2048x384_S_d0_1 : S2048x384.ReducesTo [0, 1] S_
  bcast_S_S384 : S_.BroadcastsInDim S384 (![] : Fin 0 → Fin S384.rank)
  reducesTo_S384_S_d0 : S384.ReducesTo [0] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S14336x64 : S_.BroadcastsInDim S14336x64 (![] : Fin 0 → Fin S14336x64.rank)
  reducesTo_S14336x64_S_d0_1 : S14336x64.ReducesTo [0, 1] S_

variable [Facts]

def fn_part2 {F : FTy → Type} [FloatOps F] (main_arg7 : FVec F S14336x64 .f32) (main_v33 : IVec S_ 1) : IVec S_ 1 :=
  let main_v34 : FVec F S14336x64 .f32 := Host.absf main_arg7
  let main_cst_12 : FVec F S_ .f32 := constant S_ .f32 0x7F800000#32
  let main_v35 : FVec F S14336x64 .f32 := broadcastInDim S14336x64 ![] bcast_S_S14336x64 main_cst_12
  let main_v36 : IVec S14336x64 1 := cmpf .olt main_v34 main_v35
  let main_c_13 : IVec S_ 1 := constantI S_ 1 1#1
  let main_v37 : IVec S_ 1 := (fun x v => Host.reduce IntOp.andi x v reducesTo_S14336x64_S_d0_1 h_S_) main_v36 main_c_13
  let main_v38 : IVec S_ 1 := andi main_v33 main_v37
  main_v38

def fn_part1 {F : FTy → Type} [FloatOps F] (main_arg4 : FVec F S64 .f32) (main_arg5 : FVec F S2048x64 .f32) (main_arg6 : FVec F S64 .f32) (main_arg7 : FVec F S14336x64 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048x64 .f32 := Host.absf main_arg5
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S2x2048x2048 .f32) (main_arg1 : FVec F S2048x384 .f32) (main_arg2 : FVec F S384 .f32) (main_arg3 : FVec F S2048x64 .f32) (main_arg4 : FVec F S64 .f32) (main_arg5 : FVec F S2048x64 .f32) (main_arg6 : FVec F S64 .f32) (main_arg7 : FVec F S14336x64 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x384 .f32 := Host.absf main_arg1
  let main_cst_0 : FVec F S_ .f32 := constant S_ .f32 0x7F800000#32
  let main_v5 : FVec F S2048x384 .f32 := broadcastInDim S2048x384 ![] bcast_S_S2048x384 main_cst_0
  let main_v6 : IVec S2048x384 1 := cmpf .olt main_v4 main_v5
  let main_c_1 : IVec S_ 1 := constantI S_ 1 1#1
  let main_v7 : IVec S_ 1 := (fun x v => Host.reduce IntOp.andi x v reducesTo_S2048x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_arg5 main_arg6 main_arg7 main_v13 main_v16
-- ==== Kernel.lean ====
abbrev S2x2048x2048 : Shape := ⟨3, ![2, 2048, 2048]⟩
abbrev S2048x384 : Shape := ⟨2, ![2048, 384]⟩
abbrev S384 : Shape := ⟨1, ![384]⟩
abbrev S2048x64 : Shape := ⟨2, ![2048, 64]⟩
abbrev S64 : Shape := ⟨1, ![64]⟩
abbrev S14336x64 : Shape := ⟨2, ![14336, 64]⟩
abbrev S4096x2048 : Shape := ⟨2, ![4096, 2048]⟩
abbrev S2048x512 : Shape := ⟨2, ![2048, 512]⟩
abbrev S512 : Shape := ⟨1, ![512]⟩
abbrev S1x512 : Shape := ⟨2, ![1, 512]⟩
abbrev S4096x1024 : Shape := ⟨2, ![4096, 1024]⟩
abbrev S4096x4096 : Shape := ⟨2, ![4096, 4096]⟩
abbrev S256x2048 : Shape := ⟨2, ![256, 2048]⟩
abbrev S256x1024 : Shape := ⟨2, ![256, 1024]⟩
abbrev S256x4096 : Shape := ⟨2, ![256, 4096]⟩
abbrev S14336 : Shape := ⟨1, ![14336]⟩
abbrev S14336x1 : Shape := ⟨2, ![14336, 1]⟩
abbrev S256x512 : Shape := ⟨2, ![256, 512]⟩
abbrev S256x64 : Shape := ⟨2, ![256, 64]⟩
abbrev S1024x64 : Shape := ⟨2, ![1024, 64]⟩
abbrev S4096x64 : Shape := ⟨2, ![4096, 64]⟩
abbrev S2x2048x1024 : Shape := ⟨3, ![2, 2048, 1024]⟩
abbrev S2x2048x4096 : Shape := ⟨3, ![2, 2048, 4096]⟩

abbrev nBuf : Space → Nat
  | .hbm => 29
  | .vmem => 22
  | .smem => 0
  | _ => 0

abbrev bufTy : (tb : Table) → Fin (tcTables nBuf tb) → BufTy
  | .hbm, ⟨0, _⟩ => ⟨S2x2048x2048, .f32⟩
  | .hbm, ⟨1, _⟩ => ⟨S2048x384, .f32⟩
  | .hbm, ⟨2, _⟩ => ⟨S384, .f32⟩
  | .hbm, ⟨3, _⟩ => ⟨S2048x64, .f32⟩
  | .hbm, ⟨4, _⟩ => ⟨S64, .f32⟩
  | .hbm, ⟨5, _⟩ => ⟨S2048x64, .f32⟩
  | .hbm, ⟨6, _⟩ => ⟨S64, .f32⟩
  | .hbm, ⟨7, _⟩ => ⟨S14336x64, .f32⟩
  | .hbm, ⟨8, _⟩ => ⟨S4096x2048, .f32⟩
  | .hbm, ⟨9, _⟩ => ⟨S2048x512, .f32⟩
  | .hbm, ⟨10, _⟩ => ⟨S2048x512, .bf16⟩
  | .hbm, ⟨11, _⟩ => ⟨S512, .f32⟩
  | .hbm, ⟨12, _⟩ => ⟨S1x512, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x4096, .f32⟩
  | .hbm, ⟨28, _⟩ => ⟨S2x2048x4096, .f32⟩
  | .local _ .vmem, ⟨0, _⟩ => ⟨S256x2048, .f32⟩
  | .local _ .vmem, ⟨1, _⟩ => ⟨S256x2048, .f32⟩
  | .local _ .vmem, ⟨2, _⟩ => ⟨S2048x512, .bf16⟩
  | .local _ .vmem, ⟨3, _⟩ => ⟨S1x512, .f32⟩
  | .local _ .vmem, ⟨4, _⟩ => ⟨S14336x64, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x4096, .f32⟩
  | .local _ .vmem, ⟨18, _⟩ => ⟨S256x4096, .f32⟩
  | .local _ .vmem, ⟨19, _⟩ => ⟨S256x4096, .f32⟩
  | .local _ .vmem, ⟨20, _⟩ => ⟨S256x4096, .f32⟩
  | .local _ .vmem, ⟨21, _⟩ => ⟨S14336x64, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev main_v5_7 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S14336x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S2x2048x2048_S4096x2048 : S2x2048x2048.ShapeCasts S4096x2048
  concatenates_S2048x384_S2048x64_S2048x64_S2048x512_d1 : Shape.Concatenates [S2048x384, S2048x64, S2048x64] S2048x512 1
  bitsLt_bf16_f32 : FTy.bits .bf16 < FTy.bits .f32
  concatenates_S384_S64_S64_S512_d0 : Shape.Concatenates [S384, S64, S64] S512 0
  shapeCasts_S512_S1x512 : S512.ShapeCasts S1x512
  inb_S14336x64_S14336x64_0_0 : ∀ a, (![0, 0] : Fin 2 → Nat) a + S14336x64.size a ≤ S14336x64.size a
  h_S14336x64 : 0 < S14336x64.numel
  reduces_S14336x64_S14336 : S14336x64.Reduces [1] S14336
  shapeCasts_S14336_S14336x1 : S14336.ShapeCasts S14336x1
  broadcasts_S14336x1_S14336x64 : S14336x1.Broadcasts S14336x64
  shapeCasts_S14336x64_S14336x64 : S14336x64.ShapeCasts S14336x64
  packedbf16_S14336x64_S14336x64_0_0 : (Rect.unit (s := S14336x64) ![0, 0] S14336x64.size inb_S14336x64_S14336x64_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  slices_S256x512_o0_0_S256x64 : S256x512.Slices ![0, 0] S256x64
  inb_S14336x64_S1024x64_0_0 : ∀ a, (![0, 0] : Fin 2 → Nat) a + S1024x64.size a ≤ S14336x64.size a
  h_S1024x64 : 0 < S1024x64.numel
  inb_S256x1024_S256x1024_0_0 : ∀ a, (![0, 0] : Fin 2 → Nat) a + S256x1024.size a ≤ S256x1024.size a
  h_S256x1024 : 0 < S256x1024.numel
  slices_S256x512_o0_64_S256x64 : S256x512.Slices ![0, 64] S256x64
  inb_S14336x64_S1024x64_1024_0 : ∀ a, (![1024, 0] : Fin 2 → Nat) a + S1024x64.size a ≤ S14336x64.size a
  slices_S256x512_o0_128_S256x64 : S256x512.Slices ![0, 128] S256x64
  inb_S14336x64_S1024x64_2048_0 : ∀ a, (![2048, 0] : Fin 2 → Nat) a + S1024x64.size a ≤ S14336x64.size a
  slices_S256x512_o0_192_S256x64 : S256x512.Slices ![0, 192] S256x64
  inb_S14336x64_S1024x64_3072_0 : ∀ a, (![3072, 0] : Fin 2 → Nat) a + S1024x64.size a ≤ S14336x64.size a
  slices_S256x512_o0_256_S256x64 : S256x512.Slices ![0, 256] S256x64
  inb_S14336x64_S1024x64_4096_0 : ∀ a, (![4096, 0] : Fin 2 → Nat) a + S1024x64.size a ≤ S14336x64.size a
  slices_S256x512_o0_320_S256x64 : S256x512.Slices ![0, 320] S256x64
  inb_S14336x64_S1024x64_5120_0 : ∀ a, (![5120, 0] : Fin 2 → Nat) a + S1024x64.size a ≤ S14336x64.size a
  slices_S256x512_o0_384_S256x64 : S256x512.Slices ![0, 384] S256x64
  inb_S14336x64_S4096x64_6144_0 : ∀ a, (![6144, 0] : Fin 2 → Nat) a + S4096x64.size a ≤ S14336x64.size a
  h_S4096x64 : 0 < S4096x64.numel
  inb_S256x4096_S256x4096_0_0 : ∀ a, (![0, 0] : Fin 2 → Nat) a + S256x4096.size a ≤ S256x4096.size a
  h_S256x4096 : 0 < S256x4096.numel
  slices_S256x512_o0_448_S256x64 : S256x512.Slices ![0, 448] S256x64
  inb_S14336x64_S4096x64_10240_0 : ∀ a, (![10240, 0] : Fin 2 → Nat) a + S4096x64.size a ≤ S14336x64.size a
  shapeCasts_S4096x1024_S2x2048x1024 : S4096x1024.ShapeCasts S2x2048x1024
  shapeCasts_S4096x4096_S2x2048x4096 : S4096x4096.ShapeCasts S2x2048x4096
  dot_S256x2048_S2048x512_S256x512_1_0_0_1_n_n_wf : DotDims.WF S256x2048 S2048x512 S256x512 [1] [0] [0] [1] [] []
  dot_S256x64_S1024x64_S256x1024_1_1_0_0_n_n_wf : DotDims.WF S256x64 S1024x64 S256x1024 [1] [1] [0] [0] [] []
  dot_S256x64_S4096x64_S256x4096_1_1_0_0_n_n_wf : DotDims.WF S256x64 S4096x64 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14336x64.size a ≤ S14336x64.size a
  hwx0_3 : ∀ i : grid0.Coords, EltTy.bits .f32 = 32 ∨ (Rect.block (s := S14336x64) S14336x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .f32 = 32 ∨ (Rect.block (s := S4096x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x4096.size a ≤ S4096x4096.size a
  hwx0_10 : ∀ i : grid0.Coords, EltTy.bits .f32 = 32 ∨ (Rect.block (s := S4096x4096) S256x4096.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x4096.size a ≤ S4096x4096.size a
  hwx0_11 : ∀ i : grid0.Coords, EltTy.bits .f32 = 32 ∨ (Rect.block (s := S4096x4096) S256x4096.size (cc0_transform_11 i) (hinb0_11 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S14336x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_3) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_4) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_5) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_6) S256x4096.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_7) S256x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2x2048x2048 : Shape := ⟨3, ![2, 2048, 2048]⟩
abbrev S2048x384 : Shape := ⟨2, ![2048, 384]⟩
abbrev S384 : Shape := ⟨1, ![384]⟩
abbrev S2048x64 : Shape := ⟨2, ![2048, 64]⟩
abbrev S64 : Shape := ⟨1, ![64]⟩
abbrev S14336x64 : Shape := ⟨2, ![14336, 64]⟩
abbrev S_ : Shape := ⟨0, ![]⟩
abbrev S14336 : Shape := ⟨1, ![14336]⟩
abbrev S14336x1 : Shape := ⟨2, ![14336, 1]⟩
abbrev S2x2048x384 : Shape := ⟨3, ![2, 2048, 384]⟩
abbrev S1x1x384 : Shape := ⟨3, ![1, 1, 384]⟩
abbrev S2x2048x64 : Shape := ⟨3, ![2, 2048, 64]⟩
abbrev S1024x64 : Shape := ⟨2, ![1024, 64]⟩
abbrev S2x2048x1024 : Shape := ⟨3, ![2, 2048, 1024]⟩
abbrev S1x1x64 : Shape := ⟨3, ![1, 1, 64]⟩
abbrev S4096x64 : Shape := ⟨2, ![4096, 64]⟩
abbrev S2x2048x4096 : Shape := ⟨3, ![2, 2048, 4096]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x384, .f32⟩
  | .hbm, ⟨2, _⟩ => ⟨S384, .f32⟩
  | .hbm, ⟨3, _⟩ => ⟨S2048x64, .f32⟩
  | .hbm, ⟨4, _⟩ => ⟨S64, .f32⟩
  | .hbm, ⟨5, _⟩ => ⟨S2048x64, .f32⟩
  | .hbm, ⟨6, _⟩ => ⟨S64, .f32⟩
  | .hbm, ⟨7, _⟩ => ⟨S14336x64, .f32⟩
  | .hbm, ⟨8, _⟩ => ⟨S14336x64, .f32⟩
  | .hbm, ⟨9, _⟩ => ⟨S_, .f32⟩
  | .hbm, ⟨10, _⟩ => ⟨S14336, .f32⟩
  | .hbm, ⟨11, _⟩ => ⟨S14336x1, .f32⟩
  | .hbm, ⟨12, _⟩ => ⟨S14336x1, .f32⟩
  | .hbm, ⟨13, _⟩ => ⟨S_, .f32⟩
  | .hbm, ⟨14, _⟩ => ⟨S14336x1, .f32⟩
  | .hbm, ⟨15, _⟩ => ⟨S14336x1, .f32⟩
  | .hbm, ⟨16, _⟩ => ⟨S14336x64, .f32⟩
  | .hbm, ⟨17, _⟩ => ⟨S14336x64, .f32⟩
  | .hbm, ⟨18, _⟩ => ⟨S2x2048x384, .f32⟩
  | .hbm, ⟨19, _⟩ => ⟨S1x1x384, .f32⟩
  | .hbm, ⟨20, _⟩ => ⟨S2x2048x384, .f32⟩
  | .hbm, ⟨21, _⟩ => ⟨S2x2048x384, .f32⟩
  | .hbm, ⟨22, _⟩ => ⟨S2x2048x64, .f32⟩
  | .hbm, ⟨23, _⟩ => ⟨S2x2048x64, .f32⟩
  | .hbm, ⟨24, _⟩ => ⟨S2x2048x64, .f32⟩
  | .hbm, ⟨25, _⟩ => ⟨S2x2048x64, .f32⟩
  | .hbm, ⟨26, _⟩ => ⟨S2x2048x64, .f32⟩
  | .hbm, ⟨27, _⟩ => ⟨S2x2048x64, .f32⟩
  | .hbm, ⟨28, _⟩ => ⟨S1024x64, .f32⟩
  | .hbm, ⟨29, _⟩ => ⟨S2x2048x1024, .f32⟩
  | .hbm, ⟨30, _⟩ => ⟨S1024x64, .f32⟩
  | .hbm, ⟨31, _⟩ => ⟨S2x2048x1024, .f32⟩
  | .hbm, ⟨32, _⟩ => ⟨S1024x64, .f32⟩
  | .hbm, ⟨33, _⟩ => ⟨S2x2048x1024, .f32⟩
  | .hbm, ⟨34, _⟩ => ⟨S1024x64, .f32⟩
  | .hbm, ⟨35, _⟩ => ⟨S2x2048x1024, .f32⟩
  | .hbm, ⟨36, _⟩ => ⟨S1024x64, .f32⟩
  | .hbm, ⟨37, _⟩ => ⟨S2x2048x1024, .f32⟩
  | .hbm, ⟨38, _⟩ => ⟨S1024x64, .f32⟩
  | .hbm, ⟨39, _⟩ => ⟨S2x2048x1024, .f32⟩
  | .hbm, ⟨40, _⟩ => ⟨S2x2048x64, .f32⟩
  | .hbm, ⟨41, _⟩ => ⟨S1x1x64, .f32⟩
  | .hbm, ⟨42, _⟩ => ⟨S2x2048x64, .f32⟩
  | .hbm, ⟨43, _⟩ => ⟨S2x2048x64, .f32⟩
  | .hbm, ⟨44, _⟩ => ⟨S4096x64, .f32⟩
  | .hbm, ⟨45, _⟩ => ⟨S2x2048x4096, .f32⟩
  | .hbm, ⟨46, _⟩ => ⟨S2x2048x64, .f32⟩
  | .hbm, ⟨47, _⟩ => ⟨S1x1x64, .f32⟩
  | .hbm, ⟨48, _⟩ => ⟨S2x2048x64, .f32⟩
  | .hbm, ⟨49, _⟩ => ⟨S2x2048x64, .f32⟩
  | .hbm, ⟨50, _⟩ => ⟨S4096x64, .f32⟩
  | .hbm, ⟨51, _⟩ => ⟨S2x2048x4096, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  reducesTo_S14336x64_S14336_d1 : S14336x64.ReducesTo [1] S14336
  h_S_ : 0 < S_.numel
  bcast_S14336_S14336x1_0 : S14336.BroadcastsInDim S14336x1 (![0] : Fin 1 → Fin S14336x1.rank)
  bcast_S_S14336x1 : S_.BroadcastsInDim S14336x1 (![] : Fin 0 → Fin S14336x1.rank)
  bcast_S14336x1_S14336x64_0_1 : S14336x1.BroadcastsInDim S14336x64 (![0, 1] : Fin 2 → Fin S14336x64.rank)
  bcast_S384_S1x1x384_2 : S384.BroadcastsInDim S1x1x384 (![2] : Fin 1 → Fin S1x1x384.rank)
  bcast_S1x1x384_S2x2048x384_0_1_2 : S1x1x384.BroadcastsInDim S2x2048x384 (![0, 1, 2] : Fin 3 → Fin S2x2048x384.rank)
  slices_S2x2048x384_S2x2048x64_0_0_0 : S2x2048x384.Slices ![0, 0, 0] S2x2048x64
  slices_S2x2048x384_S2x2048x64_0_0_64 : S2x2048x384.Slices ![0, 0, 64] S2x2048x64
  slices_S2x2048x384_S2x2048x64_0_0_128 : S2x2048x384.Slices ![0, 0, 128] S2x2048x64
  slices_S2x2048x384_S2x2048x64_0_0_192 : S2x2048x384.Slices ![0, 0, 192] S2x2048x64
  slices_S2x2048x384_S2x2048x64_0_0_256 : S2x2048x384.Slices ![0, 0, 256] S2x2048x64
  slices_S2x2048x384_S2x2048x64_0_0_320 : S2x2048x384.Slices ![0, 0, 320] S2x2048x64
  slices_S14336x64_S1024x64_0_0 : S14336x64.Slices ![0, 0] S1024x64
  slices_S14336x64_S1024x64_1024_0 : S14336x64.Slices ![1024, 0] S1024x64
  slices_S14336x64_S1024x64_2048_0 : S14336x64.Slices ![2048, 0] S1024x64
  slices_S14336x64_S1024x64_3072_0 : S14336x64.Slices ![3072, 0] S1024x64
  slices_S14336x64_S1024x64_4096_0 : S14336x64.Slices ![4096, 0] S1024x64
  slices_S14336x64_S1024x64_5120_0 : S14336x64.Slices ![5120, 0] S1024x64
  bcast_S64_S1x1x64_2 : S64.BroadcastsInDim S1x1x64 (![2] : Fin 1 → Fin S1x1x64.rank)
  bcast_S1x1x64_S2x2048x64_0_1_2 : S1x1x64.BroadcastsInDim S2x2048x64 (![0, 1, 2] : Fin 3 → Fin S2x2048x64.rank)
  slices_S14336x64_S4096x64_6144_0 : S14336x64.Slices ![6144, 0] S4096x64
  slices_S14336x64_S4096x64_10240_0 : S14336x64.Slices ![10240, 0] S4096x64
  dot_S2x2048x2048_S2048x384_S2x2048x384_2_0_01_1_n_n_wf : DotDims.WF S2x2048x2048 S2048x384 S2x2048x384 [2] [0] [0, 1] [1] [] []
  dot_S2x2048x64_S1024x64_S2x2048x1024_2_1_01_0_n_n_wf : DotDims.WF S2x2048x64 S1024x64 S2x2048x1024 [2] [1] [0, 1] [0] [] []
  dot_S2x2048x2048_S2048x64_S2x2048x64_2_0_01_1_n_n_wf : DotDims.WF S2x2048x2048 S2048x64 S2x2048x64 [2] [0] [0, 1] [1] [] []
  dot_S2x2048x64_S4096x64_S2x2048x4096_2_1_01_0_n_n_wf : DotDims.WF S2x2048x64 S4096x64 S2x2048x4096 [2] [1] [0, 1] [0] [] []

variable [Facts₀]

def dot_S2x2048x2048_S2048x384_S2x2048x384_2_0_01_1_n_n : DotDims S2x2048x2048 S2048x384 S2x2048x384 where
  lhsContracting := [2]
  rhsContracting := [0]
  lhsNonContracting := [0, 1]
  rhsNonContracting := [1]
  lhsBatch := []
  rhsBatch := []
  wf := dot_S2x2048x2048_S2048x384_S2x2048x384_2_0_01_1_n_n_wf
def dot_S2x2048x64_S1024x64_S2x2048x1024_2_1_01_0_n_n : DotDims S2x2048x64 S1024x64 S2x2048x1024 where
  lhsContracting := [2]
  rhsContracting := [1]
  lhsNonContracting := [0, 1]
  rhsNonContracting := [0]
  lhsBatch := []
  rhsBatch := []
  wf := dot_S2x2048x64_S1024x64_S2x2048x1024_2_1_01_0_n_n_wf
def dot_S2x2048x2048_S2048x64_S2x2048x64_2_0_01_1_n_n : DotDims S2x2048x2048 S2048x64 S2x2048x64 where
  lhsContracting := [2]
  rhsContracting := [0]
  lhsNonContracting := [0, 1]
  rhsNonContracting := [1]
  lhsBatch := []
  rhsBatch := []
  wf := dot_S2x2048x2048_S2048x64_S2x2048x64_2_0_01_1_n_n_wf
def dot_S2x2048x64_S4096x64_S2x2048x4096_2_1_01_0_n_n : DotDims S2x2048x64 S4096x64 S2x2048x4096 where
  lhsContracting := [2]
  rhsContracting := [1]
  lhsNonContracting := [0, 1]
  rhsNonContracting := [0]
  lhsBatch := []
  rhsBatch := []
  wf := dot_S2x2048x64_S4096x64_S2x2048x4096_2_1_01_0_n_n_wf

class Facts : Prop extends Facts₀ where

variable [Facts]
-- ==== Proof.K.Kit.lean ====
import proofs.«118228_g28106265985563_cont_9to1_1615_5_alg».proof.Proof.Gen.Kernel.Launch
import proofs.«118228_g28106265985563_cont_9to1_1615_5_alg».proof.Proof.Gen.Kernel.Skeleton
import proofs.«118228_g28106265985563_cont_9to1_1615_5_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- `b` is one of @main's eight argument arrays. -/
abbrev IsArg (b : Ref sig .tc) : Prop :=
  b ∈ ([main_arg0, main_arg1, main_arg2, main_arg3, main_arg4, main_arg5, main_arg6, main_arg7] : List (Ref sig .tc))

theorem IsArg.ne {b r : Ref sig .tc} (hb : IsArg b) (hr : ¬IsArg r) : b ≠ r := fun h => hr (h ▸ hb)

/-- Every host line before the region writes a result of its own, never an argument: the region finds each argument as launched. -/
theorem V_arg (c : Dev nD) {b : Ref sig .tc} (hb : IsArg b) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (hb.ne (by decide))))

/-- The same of the reshapes after the region, for an argument that is no array of the pipeline: it ends as launched. -/
theorem W_arg (dats : (p : Fin _) → (c : Dev nD) → Dat τ (Elt F) Unit ℕ (UR sig nD τ) ℕ (cfgs p) c) (c : Dev nD)
    {b : Ref sig .tc} (hb : IsArg b) (hw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (hb.ne (by decide)))),
    Pipeline.withArrays_of_ne _ c (V0 m c) _ b hw]
  exact V_arg m c hb

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_arg m dats c (b := main_arg0) (by decide) (by decide)),
      ((h c).2 main_arg1 (Pipeline.mem_restRefs_of main_arg1 (by decide) (by decide))).trans (W_arg m dats c (b := main_arg1) (by decide) (by decide)),
      ((h c).2 main_arg2 (Pipeline.mem_restRefs_of main_arg2 (by decide) (by decide))).trans (W_arg m dats c (b := main_arg2) (by decide) (by decide)),
      ((h c).2 main_arg3 (Pipeline.mem_restRefs_of main_arg3 (by decide) (by decide))).trans (W_arg m dats c (b := main_arg3) (by decide) (by decide)),
      ((h c).2 main_arg4 (Pipeline.mem_restRefs_of main_arg4 (by decide) (by decide))).trans (W_arg m dats c (b := main_arg4) (by decide) (by decide)),
      ((h c).2 main_arg5 (Pipeline.mem_restRefs_of main_arg5 (by decide) (by decide))).trans (W_arg m dats c (b := main_arg5) (by decide) (by decide)),
      ((h c).2 main_arg6 (Pipeline.mem_restRefs_of main_arg6 (by decide) (by decide))).trans (W_arg m dats c (b := main_arg6) (by decide) (by decide)),
      ((h c).1 3).trans (((dats 0 c).arrAt_in 3 rfl _).trans ((hA c 3).trans (V_arg m c (b := main_arg7) (by decide))))⟩) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S14336x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x4096 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x4096 .f32 := win0_11.stage (cfg0.slots t 11)
abbrev hs0_11 (t : Fin cfg0.N) : (ms0_11 t).IsWhole := hstage0_11 ((cfg0.slots t 11).cast nbuf0_11)

abbrev scM0_0 : Memref sig .tc .vmem S14336x64 .bf16 := Memref.whole cc0_scratch0
abbrev VS0_0 : View sig .tc .vmem S14336x64 .bf16 := scM0_0.view
abbrev VO0_4 : View sig .tc .vmem S256x1024 .f32 := (Memref.whole cc0_stg4_0 : Memref sig .tc .vmem S256x1024 .f32).view
abbrev VO0_5 : View sig .tc .vmem S256x1024 .f32 := (Memref.whole cc0_stg5_0 : Memref sig .tc .vmem S256x1024 .f32).view
abbrev VO0_6 : View sig .tc .vmem S256x1024 .f32 := (Memref.whole cc0_stg6_0 : Memref sig .tc .vmem S256x1024 .f32).view
abbrev VO0_7 : View sig .tc .vmem S256x1024 .f32 := (Memref.whole cc0_stg7_0 : Memref sig .tc .vmem S256x1024 .f32).view
abbrev VO0_8 : View sig .tc .vmem S256x1024 .f32 := (Memref.whole cc0_stg8_0 : Memref sig .tc .vmem S256x1024 .f32).view
abbrev VO0_9 : View sig .tc .vmem S256x1024 .f32 := (Memref.whole cc0_stg9_0 : Memref sig .tc .vmem S256x1024 .f32).view
abbrev VO0_10 : View sig .tc .vmem S256x4096 .f32 := (Memref.whole cc0_stg10_0 : Memref sig .tc .vmem S256x4096 .f32).view
abbrev VO0_11 : View sig .tc .vmem S256x4096 .f32 := (Memref.whole cc0_stg11_0 : Memref sig .tc .vmem S256x4096 .f32).view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
import proofs.«118228_g28106265985563_cont_9to1_1615_5_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
noncomputable def kernelRun0_A (c : Dev nD) (i : grid0.Coords) (arg1 : Memref sig .tc .vmem S256x2048 .f32) (harg1 : arg1.IsWhole) (arg2 : Memref sig .tc .vmem S2048x512 .bf16) (harg2 : arg2.IsWhole) (arg3 : Memref sig .tc .vmem S1x512 .f32) (harg3 : arg3.IsWhole) (arg4 : Memref sig .tc .vmem S14336x64 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .f32) (harg11 : arg11.IsWhole) (arg12 : Memref sig .tc .vmem S256x4096 .f32) (harg12 : arg12.IsWhole) (arg13 : Memref sig .tc .vmem S14336x64 .bf16) (harg13 : arg13.IsWhole) (hc0 : cond0_0 i)
    (x0 : Vec F S256x2048 .f32) (x1 : Vec F S2048x512 .bf16) (x2 : Vec F S1x512 .f32) (x3 : Vec F S14336x64 .f32) :
    Σ' (L4 : List (View.Piece (Elt F) S256x1024 .f32)) (L5 : List (View.Piece (Elt F) S256x1024 .f32)) (L6 : List (View.Piece (Elt F) S256x1024 .f32)) (L7 : List (View.Piece (Elt F) S256x1024 .f32)) (L8 : List (View.Piece (Elt F) S256x1024 .f32)) (L9 : List (View.Piece (Elt F) S256x1024 .f32)) (L10 : List (View.Piece (Elt F) S256x4096 .f32)) (L11 : List (View.Piece (Elt F) S256x4096 .f32)), { LS0 : List (View.Piece (Elt F) S14336x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact HS0

end Cert.Kernel.Fr

end
-- ==== Proof.K.RunB.lean ====
import proofs.«118228_g28106265985563_cont_9to1_1615_5_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
noncomputable def kernelRun0_B (c : Dev nD) (i : grid0.Coords) (arg1 : Memref sig .tc .vmem S256x2048 .f32) (harg1 : arg1.IsWhole) (arg2 : Memref sig .tc .vmem S2048x512 .bf16) (harg2 : arg2.IsWhole) (arg3 : Memref sig .tc .vmem S1x512 .f32) (harg3 : arg3.IsWhole) (arg4 : Memref sig .tc .vmem S14336x64 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .f32) (harg11 : arg11.IsWhole) (arg12 : Memref sig .tc .vmem S256x4096 .f32) (harg12 : arg12.IsWhole) (arg13 : Memref sig .tc .vmem S14336x64 .bf16) (harg13 : arg13.IsWhole) (hc0 : ¬cond0_0 i)
    (x0 : Vec F S256x2048 .f32) (x1 : Vec F S2048x512 .bf16) (x2 : Vec F S1x512 .f32) (x3 : Vec F S14336x64 .f32) (xs0 : Vec F S14336x64 .bf16) :
    Σ' (L4 : List (View.Piece (Elt F) S256x1024 .f32)) (L5 : List (View.Piece (Elt F) S256x1024 .f32)) (L6 : List (View.Piece (Elt F) S256x1024 .f32)) (L7 : List (View.Piece (Elt F) S256x1024 .f32)) (L8 : List (View.Piece (Elt F) S256x1024 .f32)) (L9 : List (View.Piece (Elt F) S256x1024 .f32)) (L10 : List (View.Piece (Elt F) S256x4096 .f32)), { L11 : List (View.Piece (Elt F) S256x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xs0) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3
    obtain rfl := harg13.eq_unread hfs0
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; isplitr; · ipureintro; exact harg13.read_unread _
    iexact HS0

end Cert.Kernel.Fr

end
-- ==== Proof.K.Outs.lean ====
import proofs.«118228_g28106265985563_cont_9to1_1615_5_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Outs9 : Type :=
  Vec F S256x1024 .f32 × Vec F S256x1024 .f32 × Vec F S256x1024 .f32 × Vec F S256x1024 .f32 × Vec F S256x1024 .f32 × Vec F S256x1024 .f32 × Vec F S256x4096 .f32 × Vec F S256x4096 .f32 × Vec F S14336x64 .bf16

section Pieces

variable (c : Dev nD) (i : grid0.Coords) (arg1 : Memref sig .tc .vmem S256x2048 .f32) (harg1 : arg1.IsWhole)
  (arg2 : Memref sig .tc .vmem S2048x512 .bf16) (harg2 : arg2.IsWhole)
  (arg3 : Memref sig .tc .vmem S1x512 .f32) (harg3 : arg3.IsWhole)
  (arg4 : Memref sig .tc .vmem S14336x64 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x4096 .f32) (harg11 : arg11.IsWhole)
  (arg12 : Memref sig .tc .vmem S256x4096 .f32) (harg12 : arg12.IsWhole)
  (arg13 : Memref sig .tc .vmem S14336x64 .bf16) (harg13 : arg13.IsWhole)

section First

variable (hc0 : cond0_0 i) (x0 : Vec F S256x2048 .f32) (x1 : Vec F S2048x512 .bf16) (x2 : Vec F S1x512 .f32) (x3 : Vec F S14336x64 .f32)

theorem cover0_A_4 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).1 S256x1024.size (by sl_kernel_rfl) y

def out0_A_4 : Vec F S256x1024 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).1)

theorem cover0_A_5 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1 S256x1024.size (by sl_kernel_rfl) y

def out0_A_5 : Vec F S256x1024 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1)

theorem cover0_A_6 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1 S256x1024.size (by sl_kernel_rfl) y

def out0_A_6 : Vec F S256x1024 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1)

theorem cover0_A_7 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1 S256x1024.size (by sl_kernel_rfl) y

def out0_A_7 : Vec F S256x1024 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1)

theorem cover0_A_8 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1 S256x1024.size (by sl_kernel_rfl) y

def out0_A_8 : Vec F S256x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1)

theorem cover0_A_9 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.1 S256x1024.size (by sl_kernel_rfl) y

def out0_A_9 : Vec F S256x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.1)

theorem cover0_A_10 (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.1 S256x4096.size (by sl_kernel_rfl) y

def out0_A_10 : Vec F S256x4096 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.1)

theorem cover0_A_11 (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.1 S256x4096.size (by sl_kernel_rfl) y

def out0_A_11 : Vec F S256x4096 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.1)

theorem scover0_A_0 (y : S14336x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.2.1 S14336x64.size (by sl_kernel_rfl) y

def sout0_A_0 : Vec F S14336x64 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.2.1)

/-- The eight output blocks and the scratch as the first point's run leaves them. -/
def outs0_A : Outs9 (F := F) :=
  (out0_A_4 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_5 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3)

end First

section Later

variable (hc0 : ¬cond0_0 i) (x0 : Vec F S256x2048 .f32) (x1 : Vec F S2048x512 .bf16) (x2 : Vec F S1x512 .f32) (x3 : Vec F S14336x64 .f32) (xs0 : Vec F S14336x64 .bf16)

theorem cover0_B_4 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).1 S256x1024.size (by sl_kernel_rfl) y

def out0_B_4 : Vec F S256x1024 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).1)

theorem cover0_B_5 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.1 S256x1024.size (by sl_kernel_rfl) y

def out0_B_5 : Vec F S256x1024 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.1)

theorem cover0_B_6 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.1 S256x1024.size (by sl_kernel_rfl) y

def out0_B_6 : Vec F S256x1024 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.1)

theorem cover0_B_7 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.1 S256x1024.size (by sl_kernel_rfl) y

def out0_B_7 : Vec F S256x1024 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.1)

theorem cover0_B_8 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.1 S256x1024.size (by sl_kernel_rfl) y

def out0_B_8 : Vec F S256x1024 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.1)

theorem cover0_B_9 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.1 S256x1024.size (by sl_kernel_rfl) y

def out0_B_9 : Vec F S256x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.1)

theorem cover0_B_10 (y : S256x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.1 S256x4096.size (by sl_kernel_rfl) y

def out0_B_10 : Vec F S256x4096 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.1)

theorem cover0_B_11 (y : S256x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.2.1 S256x4096.size (by sl_kernel_rfl) y

def out0_B_11 : Vec F S256x4096 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.2.1)

/-- The eight output blocks as a later point's run leaves them, and the scratch as it came. -/
def outs0_B : Outs9 (F := F) :=
  (out0_B_4 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_5 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    xs0)

end Later

end Pieces

def outsAt0 (c : Dev nD) : (n : ℕ) → n < cfg0.N → Outs9 (F := F)
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩)
  | n + 1, hn => outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => absurd ((hcond0_0 ⟨n + 1, hn⟩).mp h) (Nat.succ_ne_zero n)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.2.2

theorem outsAt0_A (c : Dev nD) (t : Fin cfg0.N) (h0 : t.val = 0) :
    outsAt0 m c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.2.2.2.2 := by
  obtain ⟨n, hn⟩ := t
  cases n with
  | zero => exact absurd rfl h0
  | succ n => exact rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2.1
    | ⟨10, _⟩ => (outsAt0 m c t.val t.isLt).2.2.2.2.2.2.1
    | ⟨11, _⟩ => (outsAt0 m c t.val t.isLt).2.2.2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2.1 := by dsimp only [dats]
theorem after0_10 (c : Dev nD) (t : Fin cfg0.N) : (dats m 0 c).after 10 t = (outsAt0 m c t.val t.isLt).2.2.2.2.2.2.1 := by dsimp only [dats]
theorem after0_11 (c : Dev nD) (t : Fin cfg0.N) : (dats m 0 c).after 11 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Fr

end
-- ==== Proof.K.Frame.lean ====
import proofs.«118228_g28106265985563_cont_9to1_1615_5_alg».proof.Proof.K.Outs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  rw [show (dats m 0 c).leavesExact 7 t = owns (c : Thread nD τ) (ms0_7 t) fullShare ((dats m 0 c).after 7 t) from rfl, after0_7]
  rw [show (dats m 0 c).leavesExact 8 t = owns (c : Thread nD τ) (ms0_8 t) fullShare ((dats m 0 c).after 8 t) from rfl, after0_8]
  rw [show (dats m 0 c).leavesExact 9 t = owns (c : Thread nD τ) (ms0_9 t) fullShare ((dats m 0 c).after 9 t) from rfl, after0_9]
  rw [show (dats m 0 c).leavesExact 10 t = owns (c : Thread nD τ) (ms0_10 t) fullShare ((dats m 0 c).after 10 t) from rfl, after0_10]
  rw [show (dats m 0 c).leavesExact 11 t = owns (c : Thread nD τ) (ms0_11 t) fullShare ((dats m 0 c).after 11 t) from rfl, after0_11]
  by_cases h0 : t.val = 0
  · rw [PhiS_castSucc m c t, PhiS_zero m c _ _ h0, PhiA0_eq]
    rw [outsAt0_A m c t h0]
    unfold outs0_A out0_A_4 out0_A_5 out0_A_6 out0_A_7 out0_A_8 out0_A_9 out0_A_10 out0_A_11 sout0_A_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t)).2.2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _)
  · rw [PhiS_castSucc m c t, PhiS_pos m c _ _ h0]
    rw [outsAt0_B m c t h0]
    unfold outs0_B out0_B_4 out0_B_5 out0_B_6 out0_B_7 out0_B_8 out0_B_9 out0_B_10 out0_B_11; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) _).2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_B_11 c _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Fr

end
-- ==== Proof.KI.Kit.lean ====
import proofs.«118228_g28106265985563_cont_9to1_1615_5_alg».proof.Proof.Gen.KernelIdeal.Launch
import proofs.«118228_g28106265985563_cont_9to1_1615_5_alg».proof.Proof.Gen.KernelIdeal.Skeleton
import proofs.«118228_g28106265985563_cont_9to1_1615_5_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- `b` is one of @main's eight argument arrays. -/
abbrev IsArg (b : Ref sig .tc) : Prop :=
  b ∈ ([main_arg0, main_arg1, main_arg2, main_arg3, main_arg4, main_arg5, main_arg6, main_arg7] : List (Ref sig .tc))

theorem IsArg.ne {b r : Ref sig .tc} (hb : IsArg b) (hr : ¬IsArg r) : b ≠ r := fun h => hr (h ▸ hb)

/-- Every host line before the region writes a result of its own, never an argument: the region finds each argument as launched. -/
theorem V_arg (c : Dev nD) {b : Ref sig .tc} (hb : IsArg b) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (hb.ne (by decide))))

/-- The same of the reshapes after the region, for an argument that is no array of the pipeline: it ends as launched. -/
theorem W_arg (dats : (p : Fin _) → (c : Dev nD) → Dat τ (Elt F) Unit ℕ (UR sig nD τ) ℕ (cfgs p) c) (c : Dev nD)
    {b : Ref sig .tc} (hb : IsArg b) (hw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (hb.ne (by decide)))),
    Pipeline.withArrays_of_ne _ c (V0 m c) _ b hw]
  exact V_arg m c hb

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_arg m dats c (b := main_arg0) (by decide) (by decide)),
      ((h c).2 main_arg1 (Pipeline.mem_restRefs_of main_arg1 (by decide) (by decide))).trans (W_arg m dats c (b := main_arg1) (by decide) (by decide)),
      ((h c).2 main_arg2 (Pipeline.mem_restRefs_of main_arg2 (by decide) (by decide))).trans (W_arg m dats c (b := main_arg2) (by decide) (by decide)),
      ((h c).2 main_arg3 (Pipeline.mem_restRefs_of main_arg3 (by decide) (by decide))).trans (W_arg m dats c (b := main_arg3) (by decide) (by decide)),
      ((h c).2 main_arg4 (Pipeline.mem_restRefs_of main_arg4 (by decide) (by decide))).trans (W_arg m dats c (b := main_arg4) (by decide) (by decide)),
      ((h c).2 main_arg5 (Pipeline.mem_restRefs_of main_arg5 (by decide) (by decide))).trans (W_arg m dats c (b := main_arg5) (by decide) (by decide)),
      ((h c).2 main_arg6 (Pipeline.mem_restRefs_of main_arg6 (by decide) (by decide))).trans (W_arg m dats c (b := main_arg6) (by decide) (by decide)),
      ((h c).1 3).trans (((dats 0 c).arrAt_in 3 rfl _).trans ((hA c 3).trans (V_arg m c (b := main_arg7) (by decide))))⟩) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S14336x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x4096 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x4096 .f32 := win0_11.stage (cfg0.slots t 11)
abbrev hs0_11 (t : Fin cfg0.N) : (ms0_11 t).IsWhole := hstage0_11 ((cfg0.slots t 11).cast nbuf0_11)

abbrev scM0_0 : Memref sig .tc .vmem S14336x64 .bf16 := Memref.whole cc0_scratch0
abbrev VS0_0 : View sig .tc .vmem S14336x64 .bf16 := scM0_0.view
abbrev VO0_4 : View sig .tc .vmem S256x1024 .f32 := (Memref.whole cc0_stg4_0 : Memref sig .tc .vmem S256x1024 .f32).view
abbrev VO0_5 : View sig .tc .vmem S256x1024 .f32 := (Memref.whole cc0_stg5_0 : Memref sig .tc .vmem S256x1024 .f32).view
abbrev VO0_6 : View sig .tc .vmem S256x1024 .f32 := (Memref.whole cc0_stg6_0 : Memref sig .tc .vmem S256x1024 .f32).view
abbrev VO0_7 : View sig .tc .vmem S256x1024 .f32 := (Memref.whole cc0_stg7_0 : Memref sig .tc .vmem S256x1024 .f32).view
abbrev VO0_8 : View sig .tc .vmem S256x1024 .f32 := (Memref.whole cc0_stg8_0 : Memref sig .tc .vmem S256x1024 .f32).view
abbrev VO0_9 : View sig .tc .vmem S256x1024 .f32 := (Memref.whole cc0_stg9_0 : Memref sig .tc .vmem S256x1024 .f32).view
abbrev VO0_10 : View sig .tc .vmem S256x4096 .f32 := (Memref.whole cc0_stg10_0 : Memref sig .tc .vmem S256x4096 .f32).view
abbrev VO0_11 : View sig .tc .vmem S256x4096 .f32 := (Memref.whole cc0_stg11_0 : Memref sig .tc .vmem S256x4096 .f32).view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
import proofs.«118228_g28106265985563_cont_9to1_1615_5_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
noncomputable def kernelRun0_A (c : Dev nD) (i : grid0.Coords) (arg1 : Memref sig .tc .vmem S256x2048 .f32) (harg1 : arg1.IsWhole) (arg2 : Memref sig .tc .vmem S2048x512 .bf16) (harg2 : arg2.IsWhole) (arg3 : Memref sig .tc .vmem S1x512 .f32) (harg3 : arg3.IsWhole) (arg4 : Memref sig .tc .vmem S14336x64 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .f32) (harg11 : arg11.IsWhole) (arg12 : Memref sig .tc .vmem S256x4096 .f32) (harg12 : arg12.IsWhole) (arg13 : Memref sig .tc .vmem S14336x64 .bf16) (harg13 : arg13.IsWhole) (hc0 : cond0_0 i)
    (x0 : Vec F S256x2048 .f32) (x1 : Vec F S2048x512 .bf16) (x2 : Vec F S1x512 .f32) (x3 : Vec F S14336x64 .f32) :
    Σ' (L4 : List (View.Piece (Elt F) S256x1024 .f32)) (L5 : List (View.Piece (Elt F) S256x1024 .f32)) (L6 : List (View.Piece (Elt F) S256x1024 .f32)) (L7 : List (View.Piece (Elt F) S256x1024 .f32)) (L8 : List (View.Piece (Elt F) S256x1024 .f32)) (L9 : List (View.Piece (Elt F) S256x1024 .f32)) (L10 : List (View.Piece (Elt F) S256x4096 .f32)) (L11 : List (View.Piece (Elt F) S256x4096 .f32)), { LS0 : List (View.Piece (Elt F) S14336x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact HS0

end Cert.KernelIdeal.Fr

end
-- ==== Proof.KI.RunB.lean ====
import proofs.«118228_g28106265985563_cont_9to1_1615_5_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
noncomputable def kernelRun0_B (c : Dev nD) (i : grid0.Coords) (arg1 : Memref sig .tc .vmem S256x2048 .f32) (harg1 : arg1.IsWhole) (arg2 : Memref sig .tc .vmem S2048x512 .bf16) (harg2 : arg2.IsWhole) (arg3 : Memref sig .tc .vmem S1x512 .f32) (harg3 : arg3.IsWhole) (arg4 : Memref sig .tc .vmem S14336x64 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .f32) (harg11 : arg11.IsWhole) (arg12 : Memref sig .tc .vmem S256x4096 .f32) (harg12 : arg12.IsWhole) (arg13 : Memref sig .tc .vmem S14336x64 .bf16) (harg13 : arg13.IsWhole) (hc0 : ¬cond0_0 i)
    (x0 : Vec F S256x2048 .f32) (x1 : Vec F S2048x512 .bf16) (x2 : Vec F S1x512 .f32) (x3 : Vec F S14336x64 .f32) (xs0 : Vec F S14336x64 .bf16) :
    Σ' (L4 : List (View.Piece (Elt F) S256x1024 .f32)) (L5 : List (View.Piece (Elt F) S256x1024 .f32)) (L6 : List (View.Piece (Elt F) S256x1024 .f32)) (L7 : List (View.Piece (Elt F) S256x1024 .f32)) (L8 : List (View.Piece (Elt F) S256x1024 .f32)) (L9 : List (View.Piece (Elt F) S256x1024 .f32)) (L10 : List (View.Piece (Elt F) S256x4096 .f32)), { L11 : List (View.Piece (Elt F) S256x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xs0) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3
    obtain rfl := harg13.eq_unread hfs0
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; isplitr; · ipureintro; exact harg13.read_unread _
    iexact HS0

end Cert.KernelIdeal.Fr

end
-- ==== Proof.KI.Outs.lean ====
import proofs.«118228_g28106265985563_cont_9to1_1615_5_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Outs9 : Type :=
  Vec F S256x1024 .f32 × Vec F S256x1024 .f32 × Vec F S256x1024 .f32 × Vec F S256x1024 .f32 × Vec F S256x1024 .f32 × Vec F S256x1024 .f32 × Vec F S256x4096 .f32 × Vec F S256x4096 .f32 × Vec F S14336x64 .bf16

section Pieces

variable (c : Dev nD) (i : grid0.Coords) (arg1 : Memref sig .tc .vmem S256x2048 .f32) (harg1 : arg1.IsWhole)
  (arg2 : Memref sig .tc .vmem S2048x512 .bf16) (harg2 : arg2.IsWhole)
  (arg3 : Memref sig .tc .vmem S1x512 .f32) (harg3 : arg3.IsWhole)
  (arg4 : Memref sig .tc .vmem S14336x64 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x4096 .f32) (harg11 : arg11.IsWhole)
  (arg12 : Memref sig .tc .vmem S256x4096 .f32) (harg12 : arg12.IsWhole)
  (arg13 : Memref sig .tc .vmem S14336x64 .bf16) (harg13 : arg13.IsWhole)

section First

variable (hc0 : cond0_0 i) (x0 : Vec F S256x2048 .f32) (x1 : Vec F S2048x512 .bf16) (x2 : Vec F S1x512 .f32) (x3 : Vec F S14336x64 .f32)

theorem cover0_A_4 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).1 S256x1024.size (by sl_kernel_rfl) y

def out0_A_4 : Vec F S256x1024 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).1)

theorem cover0_A_5 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1 S256x1024.size (by sl_kernel_rfl) y

def out0_A_5 : Vec F S256x1024 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1)

theorem cover0_A_6 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1 S256x1024.size (by sl_kernel_rfl) y

def out0_A_6 : Vec F S256x1024 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1)

theorem cover0_A_7 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1 S256x1024.size (by sl_kernel_rfl) y

def out0_A_7 : Vec F S256x1024 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1)

theorem cover0_A_8 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1 S256x1024.size (by sl_kernel_rfl) y

def out0_A_8 : Vec F S256x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1)

theorem cover0_A_9 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.1 S256x1024.size (by sl_kernel_rfl) y

def out0_A_9 : Vec F S256x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.1)

theorem cover0_A_10 (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.1 S256x4096.size (by sl_kernel_rfl) y

def out0_A_10 : Vec F S256x4096 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.1)

theorem cover0_A_11 (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.1 S256x4096.size (by sl_kernel_rfl) y

def out0_A_11 : Vec F S256x4096 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.1)

theorem scover0_A_0 (y : S14336x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.2.1 S14336x64.size (by sl_kernel_rfl) y

def sout0_A_0 : Vec F S14336x64 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.2.2.1)

/-- The eight output blocks and the scratch as the first point's run leaves them. -/
def outs0_A : Outs9 (F := F) :=
  (out0_A_4 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_5 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3,
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3)

end First

section Later

variable (hc0 : ¬cond0_0 i) (x0 : Vec F S256x2048 .f32) (x1 : Vec F S2048x512 .bf16) (x2 : Vec F S1x512 .f32) (x3 : Vec F S14336x64 .f32) (xs0 : Vec F S14336x64 .bf16)

theorem cover0_B_4 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).1 S256x1024.size (by sl_kernel_rfl) y

def out0_B_4 : Vec F S256x1024 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).1)

theorem cover0_B_5 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.1 S256x1024.size (by sl_kernel_rfl) y

def out0_B_5 : Vec F S256x1024 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.1)

theorem cover0_B_6 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.1 S256x1024.size (by sl_kernel_rfl) y

def out0_B_6 : Vec F S256x1024 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.1)

theorem cover0_B_7 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.1 S256x1024.size (by sl_kernel_rfl) y

def out0_B_7 : Vec F S256x1024 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.1)

theorem cover0_B_8 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.1 S256x1024.size (by sl_kernel_rfl) y

def out0_B_8 : Vec F S256x1024 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.1)

theorem cover0_B_9 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.1 S256x1024.size (by sl_kernel_rfl) y

def out0_B_9 : Vec F S256x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.1)

theorem cover0_B_10 (y : S256x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.1 S256x4096.size (by sl_kernel_rfl) y

def out0_B_10 : Vec F S256x4096 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.1)

theorem cover0_B_11 (y : S256x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.2.1 S256x4096.size (by sl_kernel_rfl) y

def out0_B_11 : Vec F S256x4096 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0).2.2.2.2.2.2.2.1)

/-- The eight output blocks as a later point's run leaves them, and the scratch as it came. -/
def outs0_B : Outs9 (F := F) :=
  (out0_B_4 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_5 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0,
    xs0)

end Later

end Pieces

def outsAt0 (c : Dev nD) : (n : ℕ) → n < cfg0.N → Outs9 (F := F)
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩)
  | n + 1, hn => outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => absurd ((hcond0_0 ⟨n + 1, hn⟩).mp h) (Nat.succ_ne_zero n)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.2.2

theorem outsAt0_A (c : Dev nD) (t : Fin cfg0.N) (h0 : t.val = 0) :
    outsAt0 m c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.2.2.2.2 := by
  obtain ⟨n, hn⟩ := t
  cases n with
  | zero => exact absurd rfl h0
  | succ n => exact rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2.1
    | ⟨10, _⟩ => (outsAt0 m c t.val t.isLt).2.2.2.2.2.2.1
    | ⟨11, _⟩ => (outsAt0 m c t.val t.isLt).2.2.2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2.1 := by dsimp only [dats]
theorem after0_10 (c : Dev nD) (t : Fin cfg0.N) : (dats m 0 c).after 10 t = (outsAt0 m c t.val t.isLt).2.2.2.2.2.2.1 := by dsimp only [dats]
theorem after0_11 (c : Dev nD) (t : Fin cfg0.N) : (dats m 0 c).after 11 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Fr

end
-- ==== Proof.KI.Frame.lean ====
import proofs.«118228_g28106265985563_cont_9to1_1615_5_alg».proof.Proof.KI.Outs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  rw [show (dats m 0 c).leavesExact 7 t = owns (c : Thread nD τ) (ms0_7 t) fullShare ((dats m 0 c).after 7 t) from rfl, after0_7]
  rw [show (dats m 0 c).leavesExact 8 t = owns (c : Thread nD τ) (ms0_8 t) fullShare ((dats m 0 c).after 8 t) from rfl, after0_8]
  rw [show (dats m 0 c).leavesExact 9 t = owns (c : Thread nD τ) (ms0_9 t) fullShare ((dats m 0 c).after 9 t) from rfl, after0_9]
  rw [show (dats m 0 c).leavesExact 10 t = owns (c : Thread nD τ) (ms0_10 t) fullShare ((dats m 0 c).after 10 t) from rfl, after0_10]
  rw [show (dats m 0 c).leavesExact 11 t = owns (c : Thread nD τ) (ms0_11 t) fullShare ((dats m 0 c).after 11 t) from rfl, after0_11]
  by_cases h0 : t.val = 0
  · rw [PhiS_castSucc m c t, PhiS_zero m c _ _ h0, PhiA0_eq]
    rw [outsAt0_A m c t h0]
    unfold outs0_A out0_A_4 out0_A_5 out0_A_6 out0_A_7 out0_A_8 out0_A_9 out0_A_10 out0_A_11 sout0_A_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t)).2.2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _)
  · rw [PhiS_castSucc m c t, PhiS_pos m c _ _ h0]
    rw [outsAt0_B m c t h0]
    unfold outs0_B out0_B_4 out0_B_5 out0_B_6 out0_B_7 out0_B_8 out0_B_9 out0_B_10 out0_B_11; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) _).2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_B_11 c _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Fr

end
-- ==== Proof.KI.Val.PiecesA.lean ====
import proofs.«118228_g28106265985563_cont_9to1_1615_5_alg».proof.Proof.KI.Outs
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

def band (ro : ℕ) (T : Vec F S14336x64 .bf16) : Vec F S1024x64 .bf16 :=
  fun j => T (ix2 (⟨(ro + (j 0).val) % 14336, Nat.mod_lt _ (by decide)⟩ : Fin 14336) (⟨(j 1).val, idx2_lt1 j⟩ : Fin 64))

def band4096 (ro : ℕ) (T : Vec F S14336x64 .bf16) : Vec F S4096x64 .bf16 :=
  fun j => T (ix2 (⟨(ro + (j 0).val) % 14336, Nat.mod_lt _ (by decide)⟩ : Fin 14336) (⟨(j 1).val, idx2_lt1 j⟩ : Fin 64))

theorem band_apply (ro : ℕ) (h : ro + 1024 ≤ 14336) (T : Vec F S14336x64 .bf16) (n : Fin 1024) (d : Fin 64) :
    band ro T (ix2 n d) = T (ix2 (⟨ro + n.val, by have := n.isLt; omega⟩ : Fin 14336) d) :=
  congrArg T (funext fun a => Fin.ext (by
    match a with
    | ⟨0, _⟩ =>
      show (ro + n.val) % 14336 = ro + n.val
      exact Nat.mod_eq_of_lt (by have := n.isLt; omega)
    | ⟨1, _⟩ => rfl))

theorem band4096_apply (ro : ℕ) (h : ro + 4096 ≤ 14336) (T : Vec F S14336x64 .bf16) (n : Fin 4096) (d : Fin 64) :
    band4096 ro T (ix2 n d) = T (ix2 (⟨ro + n.val, by have := n.isLt; omega⟩ : Fin 14336) d) :=
  congrArg T (funext fun a => Fin.ext (by
    match a with
    | ⟨0, _⟩ =>
      show (ro + n.val) % 14336 = ro + n.val
      exact Nat.mod_eq_of_lt (by have := n.isLt; omega)
    | ⟨1, _⟩ => rfl))

theorem zero_off : (![0, 0] : Fin 2 → ℕ) = fun _ => 0 := funext fun a => by fin_cases a <;> rfl

theorem ld_band (ro : ℕ) (inb : ∀ a, (![ro, 0] : Fin 2 → ℕ) a + S1024x64.size a ≤ S14336x64.size a)
    (T : Vec F S14336x64 .bf16) :
    View.ld T (Rect.unit (s := S14336x64) ![ro, 0] S1024x64.size inb) = band ro T :=
  funext fun j => congrArg T (funext fun a => Fin.ext (by
    have hin : ro + 1024 ≤ 14336 := inb 0
    have hj : (j 0).val < 1024 := (j 0).isLt
    match a with
    | ⟨0, _⟩ =>
      show ro + 1 * (j 0).val = (ro + (j 0).val) % 14336
      rw [Nat.mod_eq_of_lt (by omega)]; omega
    | ⟨1, _⟩ =>
      show 0 + 1 * (j 1).val = (j 1).val
      omega))

theorem ld_band4096 (ro : ℕ) (inb : ∀ a, (![ro, 0] : Fin 2 → ℕ) a + S4096x64.size a ≤ S14336x64.size a)
    (T : Vec F S14336x64 .bf16) :
    View.ld T (Rect.unit (s := S14336x64) ![ro, 0] S4096x64.size inb) = band4096 ro T :=
  funext fun j => congrArg T (funext fun a => Fin.ext (by
    have hin : ro + 4096 ≤ 14336 := inb 0
    have hj : (j 0).val < 4096 := (j 0).isLt
    match a with
    | ⟨0, _⟩ =>
      show ro + 1 * (j 0).val = (ro + (j 0).val) % 14336
      rw [Nat.mod_eq_of_lt (by omega)]; omega
    | ⟨1, _⟩ =>
      show 0 + 1 * (j 1).val = (j 1).val
      omega))

section First

variable (c : Dev nD) (i : grid0.Coords) (arg1 : Memref sig .tc .vmem S256x2048 .f32) (harg1 : arg1.IsWhole)
  (arg2 : Memref sig .tc .vmem S2048x512 .bf16) (harg2 : arg2.IsWhole)
  (arg3 : Memref sig .tc .vmem S1x512 .f32) (harg3 : arg3.IsWhole)
  (arg4 : Memref sig .tc .vmem S14336x64 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x4096 .f32) (harg11 : arg11.IsWhole)
  (arg12 : Memref sig .tc .vmem S256x4096 .f32) (harg12 : arg12.IsWhole)
  (arg13 : Memref sig .tc .vmem S14336x64 .bf16) (harg13 : arg13.IsWhole)
  (hc0 : cond0_0 i) (x0 : Vec F S256x2048 .f32) (x1 : Vec F S2048x512 .bf16) (x2 : Vec F S1x512 .f32) (x3 : Vec F S14336x64 .f32)

theorem pieceA_s :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 = k0_pay6 x3 := by
  unfold sout0_A_0
  rw [View.read_writes_junk_eq_canon]
  unfold kernelRun0_A
  dsimp only
  sl_unfold_words
  rw [View.canon_unit_zero zero_off]
  simp only [View.readAt_eq_ld, harg4.read_unread, View.ld_unit_zero (S := S14336x64) zero_off]

theorem pieceA_4 :
    out0_A_4 c i arg1 harg1 arg2 harg2 arg3 harg3 arg4 harg4 arg5 harg5 arg6 harg6 arg7 harg7 arg8 harg8 arg9 harg9 arg10 harg10 arg11 harg11 arg12 harg12 arg13 harg13 hc0 x0 x1 x2 x3 = k0_pay8 x0 x1 x2 (band 0 (k0_pay6 x3)) := by
  unfold out0_A_4
  rw [View.read_writes_junk_eq_canon]
  unfold kernelRun0_A
  dsimp only
  sl_unfold_words
  rw [View.canon_unit_zero zero_off]
  simp only [View.readAt_eq_ld, harg1.read_unread, harg2.read_unread, harg3.read_unread, harg4.read_unread,
    View.ld_unit_zero (S := S256x2048) zero_off, View.ld_unit_zero (S := S2048x512) zero_off,
    View.ld_unit_zero (S := S1x512) zero_off, View.ld_unit_zero (S := S14336x64) zero_off,
    View.readCov_eq_canon', View.canon_unit_zero (S := S14336x64) zero_off]
  exact congrArg (fun B => k0_pay8 x0 x1 x2 B) (ld_band 0 _ (k0_pay6 x3))

theorem pieceA_5 :
    out0_A_5 c i arg1 harg1 arg2 harg2 arg3 harg3 arg4 harg4 arg5 harg5 arg6 harg6 arg7 harg7 arg8 harg8 arg9 harg9 arg10 harg10 arg11 harg11 arg12 harg12 arg13 harg13 hc0 x0 x1 x2 x3 = k0_pay9 x0 x1 x2 (band 1024 (k0_pay6 x3)) := by
  unfold out0_A_5
  rw [View.read_writes_junk_eq_canon]
  unfold kernelRun0_A
  dsimp only
  sl_unfold_words
  rw [View.canon_unit_zero zero_off]
  simp only [View.readAt_eq_ld, harg1.read_unread, harg2.read_unread, harg3.read_unread, harg4.read_unread,
    View.ld_unit_zero (S := S256x2048) zero_off, View.ld_unit_zero (S := S2048x512) zero_off,
    View.ld_unit_zero (S := S1x512) zero_off, View.ld_unit_zero (S := S14336x64) zero_off,
    View.readCov_eq_canon', View.canon_unit_zero (S := S14336x64) zero_off]
  exact congrArg (fun B => k0_pay9 x0 x1 x2 B) (ld_band 1024 _ (k0_pay6 x3))

theorem pieceA_6 :
    out0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 = k0_pay10 x0 x1 x2 (band 2048 (k0_pay6 x3)) := by
  unfold out0_A_6
  rw [View.read_writes_junk_eq_canon]
  unfold kernelRun0_A
  dsimp only
  sl_unfold_words
  rw [View.canon_unit_zero zero_off]
  simp only [View.readAt_eq_ld, harg1.read_unread, harg2.read_unread, harg3.read_unread, harg4.read_unread,
    View.ld_unit_zero (S := S256x2048) zero_off, View.ld_unit_zero (S := S2048x512) zero_off,
    View.ld_unit_zero (S := S1x512) zero_off, View.ld_unit_zero (S := S14336x64) zero_off,
    View.readCov_eq_canon', View.canon_unit_zero (S := S14336x64) zero_off]
  exact congrArg (fun B => k0_pay10 x0 x1 x2 B) (ld_band 2048 _ (k0_pay6 x3))

theorem pieceA_7 :
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 = k0_pay1 (k0_pay11 x0 x1 x2) (band 3072 (k0_pay6 x3)) (constant S256x1024 .f32 0x00000000#32) := by
  unfold out0_A_7
  rw [View.read_writes_junk_eq_canon]
  unfold kernelRun0_A
  dsimp only
  sl_unfold_words
  rw [View.canon_unit_zero zero_off]
  simp only [View.readAt_eq_ld, harg1.read_unread, harg2.read_unread, harg3.read_unread, harg4.read_unread,
    View.ld_unit_zero (S := S256x2048) zero_off, View.ld_unit_zero (S := S2048x512) zero_off,
    View.ld_unit_zero (S := S1x512) zero_off, View.ld_unit_zero (S := S14336x64) zero_off,
    View.readCov_eq_canon', View.canon_unit_zero (S := S14336x64) zero_off]
  exact congrArg (fun B => k0_pay1 (k0_pay11 x0 x1 x2) B (constant S256x1024 .f32 0x00000000#32)) (ld_band 3072 _ (k0_pay6 x3))

theorem pieceA_8 :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 = k0_pay2 (k0_pay7 x0 x1 x2) (band 4096 (k0_pay6 x3)) := by
  unfold out0_A_8
  rw [View.read_writes_junk_eq_canon]
  unfold kernelRun0_A
  dsimp only
  sl_unfold_words
  rw [View.canon_unit_zero zero_off]
  simp only [View.readAt_eq_ld, harg1.read_unread, harg2.read_unread, harg3.read_unread, harg4.read_unread,
    View.ld_unit_zero (S := S256x2048) zero_off, View.ld_unit_zero (S := S2048x512) zero_off,
    View.ld_unit_zero (S := S1x512) zero_off, View.ld_unit_zero (S := S14336x64) zero_off,
    View.readCov_eq_canon', View.canon_unit_zero (S := S14336x64) zero_off]
  exact congrArg (fun B => k0_pay2 (k0_pay7 x0 x1 x2) B) (ld_band 4096 _ (k0_pay6 x3))

theorem pieceA_9 :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 = k0_pay3 (k0_pay7 x0 x1 x2) (band 5120 (k0_pay6 x3)) := by
  unfold out0_A_9
  rw [View.read_writes_junk_eq_canon]
  unfold kernelRun0_A
  dsimp only
  sl_unfold_words
  rw [View.canon_unit_zero zero_off]
  simp only [View.readAt_eq_ld, harg1.read_unread, harg2.read_unread, harg3.read_unread, harg4.read_unread,
    View.ld_unit_zero (S := S256x2048) zero_off, View.ld_unit_zero (S := S2048x512) zero_off,
    View.ld_unit_zero (S := S1x512) zero_off, View.ld_unit_zero (S := S14336x64) zero_off,
    View.readCov_eq_canon', View.canon_unit_zero (S := S14336x64) zero_off]
  exact congrArg (fun B => k0_pay3 (k0_pay7 x0 x1 x2) B) (ld_band 5120 _ (k0_pay6 x3))

theorem pieceA_10 :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 = k0_pay4 (k0_pay7 x0 x1 x2) (band4096 6144 (k0_pay6 x3)) := by
  unfold out0_A_10
  rw [View.read_writes_junk_eq_canon]
  unfold kernelRun0_A
  dsimp only
  sl_unfold_words
  rw [View.canon_unit_zero zero_off]
  simp only [View.readAt_eq_ld, harg1.read_unread, harg2.read_unread, harg3.read_unread, harg4.read_unread,
    View.ld_unit_zero (S := S256x2048) zero_off, View.ld_unit_zero (S := S2048x512) zero_off,
    View.ld_unit_zero (S := S1x512) zero_off, View.ld_unit_zero (S := S14336x64) zero_off,
    View.readCov_eq_canon', View.canon_unit_zero (S := S14336x64) zero_off]
  exact congrArg (fun B => k0_pay4 (k0_pay7 x0 x1 x2) B) (ld_band4096 6144 _ (k0_pay6 x3))

theorem pieceA_11 :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 = k0_pay5 (k0_pay7 x0 x1 x2) (band4096 10240 (k0_pay6 x3)) := by
  unfold out0_A_11
  rw [View.read_writes_junk_eq_canon]
  unfold kernelRun0_A
  dsimp only
  sl_unfold_words
  rw [View.canon_unit_zero zero_off]
  simp only [View.readAt_eq_ld, harg1.read_unread, harg2.read_unread, harg3.read_unread, harg4.read_unread,
    View.ld_unit_zero (S := S256x2048) zero_off, View.ld_unit_zero (S := S2048x512) zero_off,
    View.ld_unit_zero (S := S1x512) zero_off, View.ld_unit_zero (S := S14336x64) zero_off,
    View.readCov_eq_canon', View.canon_unit_zero (S := S14336x64) zero_off]
  exact congrArg (fun B => k0_pay5 (k0_pay7 x0 x1 x2) B) (ld_band4096 10240 _ (k0_pay6 x3))

end First

end Cert.KernelIdeal.Fr

end
-- ==== Proof.KI.Val.PiecesB.lean ====
import proofs.«118228_g28106265985563_cont_9to1_1615_5_alg».proof.Proof.KI.Val.PiecesA
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

section Later

variable (c : Dev nD) (i : grid0.Coords) (arg1 : Memref sig .tc .vmem S256x2048 .f32) (harg1 : arg1.IsWhole)
  (arg2 : Memref sig .tc .vmem S2048x512 .bf16) (harg2 : arg2.IsWhole)
  (arg3 : Memref sig .tc .vmem S1x512 .f32) (harg3 : arg3.IsWhole)
  (arg4 : Memref sig .tc .vmem S14336x64 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x4096 .f32) (harg11 : arg11.IsWhole)
  (arg12 : Memref sig .tc .vmem S256x4096 .f32) (harg12 : arg12.IsWhole)
  (arg13 : Memref sig .tc .vmem S14336x64 .bf16) (harg13 : arg13.IsWhole)
  (hc0 : ¬cond0_0 i) (x0 : Vec F S256x2048 .f32) (x1 : Vec F S2048x512 .bf16) (x2 : Vec F S1x512 .f32) (x3 : Vec F S14336x64 .f32) (xs0 : Vec F S14336x64 .bf16)

theorem pieceB_4 :
    out0_B_4 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 = k0_pay8 x0 x1 x2 (band 0 xs0) := by
  unfold out0_B_4
  rw [View.read_writes_junk_eq_canon]
  unfold kernelRun0_B
  dsimp only
  sl_unfold_words
  rw [View.canon_unit_zero zero_off]
  simp only [View.readAt_eq_ld, harg1.read_unread, harg2.read_unread, harg3.read_unread, harg13.read_unread,
    View.ld_unit_zero (S := S256x2048) zero_off, View.ld_unit_zero (S := S2048x512) zero_off, View.ld_unit_zero (S := S1x512) zero_off]
  exact congrArg (fun B => k0_pay8 x0 x1 x2 B) (ld_band 0 _ xs0)

theorem pieceB_5 :
    out0_B_5 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 = k0_pay9 x0 x1 x2 (band 1024 xs0) := by
  unfold out0_B_5
  rw [View.read_writes_junk_eq_canon]
  unfold kernelRun0_B
  dsimp only
  sl_unfold_words
  rw [View.canon_unit_zero zero_off]
  simp only [View.readAt_eq_ld, harg1.read_unread, harg2.read_unread, harg3.read_unread, harg13.read_unread,
    View.ld_unit_zero (S := S256x2048) zero_off, View.ld_unit_zero (S := S2048x512) zero_off, View.ld_unit_zero (S := S1x512) zero_off]
  exact congrArg (fun B => k0_pay9 x0 x1 x2 B) (ld_band 1024 _ xs0)

theorem pieceB_6 :
    out0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 = k0_pay10 x0 x1 x2 (band 2048 xs0) := by
  unfold out0_B_6
  rw [View.read_writes_junk_eq_canon]
  unfold kernelRun0_B
  dsimp only
  sl_unfold_words
  rw [View.canon_unit_zero zero_off]
  simp only [View.readAt_eq_ld, harg1.read_unread, harg2.read_unread, harg3.read_unread, harg13.read_unread,
    View.ld_unit_zero (S := S256x2048) zero_off, View.ld_unit_zero (S := S2048x512) zero_off, View.ld_unit_zero (S := S1x512) zero_off]
  exact congrArg (fun B => k0_pay10 x0 x1 x2 B) (ld_band 2048 _ xs0)

theorem pieceB_7 :
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 = k0_pay1 (k0_pay11 x0 x1 x2) (band 3072 xs0) (constant (F := F) S256x1024 .f32 0x00000000#32) := by
  unfold out0_B_7
  rw [View.read_writes_junk_eq_canon]
  unfold kernelRun0_B
  dsimp only
  sl_unfold_words
  rw [View.canon_unit_zero zero_off]
  simp only [View.readAt_eq_ld, harg1.read_unread, harg2.read_unread, harg3.read_unread, harg13.read_unread,
    View.ld_unit_zero (S := S256x2048) zero_off, View.ld_unit_zero (S := S2048x512) zero_off, View.ld_unit_zero (S := S1x512) zero_off]
  exact congrArg (fun B => k0_pay1 (k0_pay11 x0 x1 x2) B (constant (F := F) S256x1024 .f32 0x00000000#32)) (ld_band 3072 _ xs0)

theorem pieceB_8 :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 = k0_pay2 (k0_pay7 x0 x1 x2) (band 4096 xs0) := by
  unfold out0_B_8
  rw [View.read_writes_junk_eq_canon]
  unfold kernelRun0_B
  dsimp only
  sl_unfold_words
  rw [View.canon_unit_zero zero_off]
  simp only [View.readAt_eq_ld, harg1.read_unread, harg2.read_unread, harg3.read_unread, harg13.read_unread,
    View.ld_unit_zero (S := S256x2048) zero_off, View.ld_unit_zero (S := S2048x512) zero_off, View.ld_unit_zero (S := S1x512) zero_off]
  exact congrArg (fun B => k0_pay2 (k0_pay7 x0 x1 x2) B) (ld_band 4096 _ xs0)

theorem pieceB_9 :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 = k0_pay3 (k0_pay7 x0 x1 x2) (band 5120 xs0) := by
  unfold out0_B_9
  rw [View.read_writes_junk_eq_canon]
  unfold kernelRun0_B
  dsimp only
  sl_unfold_words
  rw [View.canon_unit_zero zero_off]
  simp only [View.readAt_eq_ld, harg1.read_unread, harg2.read_unread, harg3.read_unread, harg13.read_unread,
    View.ld_unit_zero (S := S256x2048) zero_off, View.ld_unit_zero (S := S2048x512) zero_off, View.ld_unit_zero (S := S1x512) zero_off]
  exact congrArg (fun B => k0_pay3 (k0_pay7 x0 x1 x2) B) (ld_band 5120 _ xs0)

theorem pieceB_10 :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 = k0_pay4 (k0_pay7 x0 x1 x2) (band4096 6144 xs0) := by
  unfold out0_B_10
  rw [View.read_writes_junk_eq_canon]
  unfold kernelRun0_B
  dsimp only
  sl_unfold_words
  rw [View.canon_unit_zero zero_off]
  simp only [View.readAt_eq_ld, harg1.read_unread, harg2.read_unread, harg3.read_unread, harg13.read_unread,
    View.ld_unit_zero (S := S256x2048) zero_off, View.ld_unit_zero (S := S2048x512) zero_off, View.ld_unit_zero (S := S1x512) zero_off]
  exact congrArg (fun B => k0_pay4 (k0_pay7 x0 x1 x2) B) (ld_band4096 6144 _ xs0)

theorem pieceB_11 :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 = k0_pay5 (k0_pay7 x0 x1 x2) (band4096 10240 xs0) := by
  unfold out0_B_11
  rw [View.read_writes_junk_eq_canon]
  unfold kernelRun0_B
  dsimp only
  sl_unfold_words
  rw [View.canon_unit_zero zero_off]
  simp only [View.readAt_eq_ld, harg1.read_unread, harg2.read_unread, harg3.read_unread, harg13.read_unread,
    View.ld_unit_zero (S := S256x2048) zero_off, View.ld_unit_zero (S := S2048x512) zero_off, View.ld_unit_zero (S := S1x512) zero_off]
  exact congrArg (fun B => k0_pay5 (k0_pay7 x0 x1 x2) B) (ld_band4096 10240 _ xs0)

end Later

end Cert.KernelIdeal.Fr

end
-- ==== Proof.LibNary3.lean ====
import Idealize.ShloMosaic.Lib.StableHlo.Run

noncomputable section

namespace Cert.Lib.Nary3

open Idealize.ShloMosaic Idealize.ShloMosaic.StableHlo

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib.Nary3
-- ==== Proof.KI.Val.Entry.lean ====
import proofs.«118228_g28106265985563_cont_9to1_1615_5_alg».proof.Proof.KI.Kit
import proofs.«118228_g28106265985563_cont_9to1_1615_5_alg».proof.Proof.LibNary3
import Idealize.ShloMosaic.Lib.StableHlo.Run
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_main_v0 (c : Dev nD) :
    (V m c main_v0 : S4096x2048.Idx → Elt F .f32)
      = shapeCast S4096x2048 (m ((c : Thread nD τ).loc main_arg0)) shapeCasts_S2x2048x2048_S4096x2048 := by
  dsimp only [V, V0]
  simp only [hostOps0, List.flatten_cons, List.flatten_nil, List.append_nil]
  after_results
  rfl

theorem V_main_v2 (c : Dev nD) :
    (V m c main_v2 : S2048x512.Idx → Elt F .bf16)
      = truncf .bf16 (concatenate S2048x512 1 [⟨S2048x384, m ((c : Thread nD τ).loc main_arg1)⟩,
          ⟨S2048x64, m ((c : Thread nD τ).loc main_arg3)⟩, ⟨S2048x64, m ((c : Thread nD τ).loc main_arg5)⟩]
          concatenates_S2048x384_S2048x64_S2048x64_S2048x512_d1) bitsLt_bf16_f32 := by
  dsimp only [V, V0]
  simp only [hostOps0, List.flatten_cons, List.flatten_nil, List.append_nil, StableHlo.after_cons, StableHlo.after_nil]
  repeat (first
    | rw [StableHlo.unary_result] | rw [StableHlo.reshape_result] | rw [Cert.Lib.Nary3.nary3_result]
    | (rw [StableHlo.unary_result_ne]; rotate_left; decide)
    | (rw [StableHlo.reshape_result_ne]; rotate_left; decide)
    | (rw [StableHlo.nary_result_ne]; rotate_left; decide))
  rfl

theorem V_main_v4 (c : Dev nD) :
    (V m c main_v4 : S1x512.Idx → Elt F .f32)
      = shapeCast S1x512 (concatenate S512 0 [⟨S384, m ((c : Thread nD τ).loc main_arg2)⟩,
          ⟨S64, m ((c : Thread nD τ).loc main_arg4)⟩, ⟨S64, m ((c : Thread nD τ).loc main_arg6)⟩]
          concatenates_S384_S64_S64_S512_d0) shapeCasts_S512_S1x512 := by
  dsimp only [V, V0]
  simp only [hostOps0, List.flatten_cons, List.flatten_nil, List.append_nil, StableHlo.after_cons, StableHlo.after_nil]
  repeat (first
    | rw [StableHlo.unary_result] | rw [StableHlo.reshape_result] | rw [Cert.Lib.Nary3.nary3_result]
    | (rw [StableHlo.unary_result_ne]; rotate_left; decide)
    | (rw [StableHlo.reshape_result_ne]; rotate_left; decide)
    | (rw [StableHlo.nary_result_ne]; rotate_left; decide))
  rfl

theorem idx_in : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem iblk0_apply (c : Dev nD) (t : Fin cfg0.N) (r : Fin 256) (k : Fin 2048) :
    (iblk m c 0 t : S256x2048.Idx → Elt F .f32) (ix2 r k)
      = V m c main_v0 (ix2 ⟨256 * t.val + r.val, by have := t.isLt; have : cfg0.N = 16 := N_0; omega⟩ k) := by
  obtain ⟨e0, e1, -⟩ := idx_in t
  show (V m c main_v0 : S4096x2048.Idx → Elt F .f32) (((cfg0.win 0).blk t).view.emb (ix2 r k)) = _
  refine congrArg (V m c main_v0 : S4096x2048.Idx → Elt F .f32) (funext fun a => Fin.ext ?_)
  match a with
  | ⟨0, _⟩ => show win0_0.index t (0 : Fin 2) * 256 + 1 * r.val = 256 * t.val + r.val; omega
  | ⟨1, _⟩ => show win0_0.index t (1 : Fin 2) * 2048 + 1 * k.val = k.val; omega

theorem iblk1_eq (c : Dev nD) (t : Fin cfg0.N) :
    (iblk m c 1 t : S2048x512.Idx → Elt F .bf16) = V m c main_v2 := by
  obtain ⟨-, -, e0, e1, -⟩ := idx_in t
  funext y
  show (V m c main_v2 : S2048x512.Idx → Elt F .bf16) (((cfg0.win 1).blk t).view.emb y) = _
  refine congrArg (V m c main_v2 : S2048x512.Idx → Elt F .bf16) (funext fun a => Fin.ext ?_)
  match a with
  | ⟨0, _⟩ => show win0_1.index t (0 : Fin 2) * 2048 + 1 * (y 0).val = (y 0).val; omega
  | ⟨1, _⟩ => show win0_1.index t (1 : Fin 2) * 512 + 1 * (y 1).val = (y 1).val; omega

theorem iblk2_eq (c : Dev nD) (t : Fin cfg0.N) :
    (iblk m c 2 t : S1x512.Idx → Elt F .f32) = V m c main_v4 := by
  obtain ⟨-, -, -, -, e0, e1, -⟩ := idx_in t
  funext y
  show (V m c main_v4 : S1x512.Idx → Elt F .f32) (((cfg0.win 2).blk t).view.emb y) = _
  refine congrArg (V m c main_v4 : S1x512.Idx → Elt F .f32) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem iblk3_eq (c : Dev nD) (t : Fin cfg0.N) :
    (iblk m c 3 t : S14336x64.Idx → Elt F .f32) = m ((c : Thread nD τ).loc main_arg7) := by
  obtain ⟨-, -, -, -, -, -, e0, e1⟩ := idx_in t
  refine Eq.trans ?_ (V_arg m c (b := main_arg7) (by decide))
  funext y
  show (V m c main_arg7 : S14336x64.Idx → Elt F .f32) (((cfg0.win 3).blk t).view.emb y) = _
  refine congrArg (V m c main_arg7 : S14336x64.Idx → Elt F .f32) (funext fun a => Fin.ext ?_)
  match a with
  | ⟨0, _⟩ => show win0_3.index t (0 : Fin 2) * 14336 + 1 * (y 0).val = (y 0).val; omega
  | ⟨1, _⟩ => show win0_3.index t (1 : Fin 2) * 64 + 1 * (y 1).val = (y 1).val; omega

end Cert.KernelIdeal.Fr

end
-- ==== Proof.KI.Val.Points.lean ====
import proofs.«118228_g28106265985563_cont_9to1_1615_5_alg».proof.Proof.KI.Val.PiecesB
import proofs.«118228_g28106265985563_cont_9to1_1615_5_alg».proof.Proof.KI.Val.Entry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem scrAt (c : Dev nD) : ∀ (n : ℕ) (hn : n < cfg0.N), (outsAt0 m c n hn).2.2.2.2.2.2.2.2 = (k0_pay6 (m ((c : Thread nD τ).loc main_arg7)))
  | 0, hn => by
    rw [show outsAt0 m c 0 hn = outsAt0 m c (⟨0, hn⟩ : Fin cfg0.N).val (⟨0, hn⟩ : Fin cfg0.N).isLt from rfl,
      outsAt0_A m c ⟨0, hn⟩ rfl]; dsimp only [outs0_A]
    rw [pieceA_s, iblk3_eq]
  | n + 1, hn => by
    rw [show outsAt0 m c (n + 1) hn = outsAt0 m c (⟨n + 1, hn⟩ : Fin cfg0.N).val (⟨n + 1, hn⟩ : Fin cfg0.N).isLt from rfl,
      outsAt0_B m c ⟨n + 1, hn⟩ (Nat.succ_ne_zero n)]; dsimp only [outs0_B]
    exact scrAt c n (Nat.lt_of_succ_lt hn)

theorem comp_4 (c : Dev nD) (t : Fin cfg0.N) :
    (outsAt0 m c t.val t.isLt).1 = k0_pay8 (iblk m c 0 t) (iblk m c 1 t) (iblk m c 2 t) (band 0 (k0_pay6 (m ((c : Thread nD τ).loc main_arg7)))) := by
  by_cases h0 : t.val = 0
  · rw [outsAt0_A m c t h0]; dsimp only [outs0_A]
    rw [pieceA_4, iblk3_eq]
  · rw [outsAt0_B m c t h0]; dsimp only [outs0_B]
    rw [pieceB_4, scrAt m c (t.val - 1) _]

theorem comp_5 (c : Dev nD) (t : Fin cfg0.N) :
    (outsAt0 m c t.val t.isLt).2.1 = k0_pay9 (iblk m c 0 t) (iblk m c 1 t) (iblk m c 2 t) (band 1024 (k0_pay6 (m ((c : Thread nD τ).loc main_arg7)))) := by
  by_cases h0 : t.val = 0
  · rw [outsAt0_A m c t h0]; dsimp only [outs0_A]
    rw [pieceA_5, iblk3_eq]
  · rw [outsAt0_B m c t h0]; dsimp only [outs0_B]
    rw [pieceB_5, scrAt m c (t.val - 1) _]

theorem comp_6 (c : Dev nD) (t : Fin cfg0.N) :
    (outsAt0 m c t.val t.isLt).2.2.1 = k0_pay10 (iblk m c 0 t) (iblk m c 1 t) (iblk m c 2 t) (band 2048 (k0_pay6 (m ((c : Thread nD τ).loc main_arg7)))) := by
  by_cases h0 : t.val = 0
  · rw [outsAt0_A m c t h0]; dsimp only [outs0_A]
    rw [pieceA_6, iblk3_eq]
  · rw [outsAt0_B m c t h0]; dsimp only [outs0_B]
    rw [pieceB_6, scrAt m c (t.val - 1) _]

theorem comp_7 (c : Dev nD) (t : Fin cfg0.N) :
    (outsAt0 m c t.val t.isLt).2.2.2.1 = k0_pay1 (k0_pay11 (iblk m c 0 t) (iblk m c 1 t) (iblk m c 2 t)) (band 3072 (k0_pay6 (m ((c : Thread nD τ).loc main_arg7)))) (constant S256x1024 .f32 0x00000000#32) := by
  by_cases h0 : t.val = 0
  · rw [outsAt0_A m c t h0]; dsimp only [outs0_A]
    rw [pieceA_7, iblk3_eq]
  · rw [outsAt0_B m c t h0]; dsimp only [outs0_B]
    rw [pieceB_7, scrAt m c (t.val - 1) _]

theorem comp_8 (c : Dev nD) (t : Fin cfg0.N) :
    (outsAt0 m c t.val t.isLt).2.2.2.2.1 = k0_pay2 (k0_pay7 (iblk m c 0 t) (iblk m c 1 t) (iblk m c 2 t)) (band 4096 (k0_pay6 (m ((c : Thread nD τ).loc main_arg7)))) := by
  by_cases h0 : t.val = 0
  · rw [outsAt0_A m c t h0]; dsimp only [outs0_A]
    rw [pieceA_8, iblk3_eq]
  · rw [outsAt0_B m c t h0]; dsimp only [outs0_B]
    rw [pieceB_8, scrAt m c (t.val - 1) _]

theorem comp_9 (c : Dev nD) (t : Fin cfg0.N) :
    (outsAt0 m c t.val t.isLt).2.2.2.2.2.1 = k0_pay3 (k0_pay7 (iblk m c 0 t) (iblk m c 1 t) (iblk m c 2 t)) (band 5120 (k0_pay6 (m ((c : Thread nD τ).loc main_arg7)))) := by
  by_cases h0 : t.val = 0
  · rw [outsAt0_A m c t h0]; dsimp only [outs0_A]
    rw [pieceA_9, iblk3_eq]
  · rw [outsAt0_B m c t h0]; dsimp only [outs0_B]
    rw [pieceB_9, scrAt m c (t.val - 1) _]

theorem comp_10 (c : Dev nD) (t : Fin cfg0.N) :
    (outsAt0 m c t.val t.isLt).2.2.2.2.2.2.1 = k0_pay4 (k0_pay7 (iblk m c 0 t) (iblk m c 1 t) (iblk m c 2 t)) (band4096 6144 (k0_pay6 (m ((c : Thread nD τ).loc main_arg7)))) := by
  by_cases h0 : t.val = 0
  · rw [outsAt0_A m c t h0]; dsimp only [outs0_A]
    rw [pieceA_10, iblk3_eq]
  · rw [outsAt0_B m c t h0]; dsimp only [outs0_B]
    rw [pieceB_10, scrAt m c (t.val - 1) _]

theorem comp_11 (c : Dev nD) (t : Fin cfg0.N) :
    (outsAt0 m c t.val t.isLt).2.2.2.2.2.2.2.1 = k0_pay5 (k0_pay7 (iblk m c 0 t) (iblk m c 1 t) (iblk m c 2 t)) (band4096 10240 (k0_pay6 (m ((c : Thread nD τ).loc main_arg7)))) := by
  by_cases h0 : t.val = 0
  · rw [outsAt0_A m c t h0]; dsimp only [outs0_A]
    rw [pieceA_11, iblk3_eq]
  · rw [outsAt0_B m c t h0]; dsimp only [outs0_B]
    rw [pieceB_11, scrAt m c (t.val - 1) _]

end Cert.KernelIdeal.Fr

end
-- ==== Proof.Val.KerPay.lean ====
import proofs.«118228_g28106265985563_cont_9to1_1615_5_alg».proof.Proof.Gen.KernelIdeal.Skeleton
import Idealize.ShloMosaic.Lib.Pipeline.Value
import Idealize.ShloMosaic.Lib.ValueIdx
import Idealize.ShloMosaic.PureOps.Ideal.Laws

noncomputable section

namespace Cert.Val

open Cert.KernelIdeal Cert.KernelIdeal.Gen Idealize.ShloMosaic Idealize.ShloMosaic.ValueIdx Idealize.SL.Sem

theorem projD_lhs_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem projD_lhs_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem projD_rhs_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem projD_rhs_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

theorem bandA_lhs_0 (i : S256x1024.Idx) (q : dot_S256x64_S1024x64_S256x1024_1_1_0_0_n_n.contr.Idx) :
    (dot_S256x64_S1024x64_S256x1024_1_1_0_0_n_n.lhsIdx i q 0).val = (i 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem bandA_lhs_1 (i : S256x1024.Idx) (q : dot_S256x64_S1024x64_S256x1024_1_1_0_0_n_n.contr.Idx) :
    (dot_S256x64_S1024x64_S256x1024_1_1_0_0_n_n.lhsIdx i q 1).val = (q ⟨0, by decide⟩).val :=
  dot_S256x64_S1024x64_S256x1024_1_1_0_0_n_n.lhsIdx_val_of_single rfl i q
theorem bandA_rhs_0 (i : S256x1024.Idx) (q : dot_S256x64_S1024x64_S256x1024_1_1_0_0_n_n.contr.Idx) :
    (dot_S256x64_S1024x64_S256x1024_1_1_0_0_n_n.rhsIdx i q 0).val = (i 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem bandA_rhs_1 (i : S256x1024.Idx) (q : dot_S256x64_S1024x64_S256x1024_1_1_0_0_n_n.contr.Idx) :
    (dot_S256x64_S1024x64_S256x1024_1_1_0_0_n_n.rhsIdx i q 1).val = (q ⟨0, by decide⟩).val :=
  dot_S256x64_S1024x64_S256x1024_1_1_0_0_n_n.rhsIdx_val_of_single rfl i q

theorem bandB_lhs_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem bandB_lhs_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem bandB_rhs_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem bandB_rhs_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

theorem projD_apply (x : FVec Ideal S256x2048 .bf16) (w : FVec Ideal S2048x512 .bf16) (r : Fin 256) (f : Fin 512) :
    matmul dot_S256x2048_S2048x512_S256x512_1_0_0_1_n_n none x w (constant (F := Ideal) S256x512 .f32 0x00000000#32) (ix2 r f)
      = ∑ k : Fin 2048, x (ix2 r k) * w (ix2 k f) := by
  simp only [matmul]
  rw [Ideal.matmul_constant_zero_apply, ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 r f) ((contrEquiv1 dot_S256x2048_S2048x512_S256x512_1_0_0_1_n_n 2048 rfl rfl).symm k) = ix2 r k := funext fun a => Fin.ext (by
    match a with
    | ⟨0, _⟩ => exact projD_lhs_0 _ _
    | ⟨1, _⟩ => exact (projD_lhs_1 _ _).trans hk)
  have er : dot_S256x2048_S2048x512_S256x512_1_0_0_1_n_n.rhsIdx (ix2 r f) ((contrEquiv1 dot_S256x2048_S2048x512_S256x512_1_0_0_1_n_n 2048 rfl rfl).symm k) = ix2 k f := funext fun a => Fin.ext (by
    match a with
    | ⟨0, _⟩ => exact (projD_rhs_0 _ _).trans hk
    | ⟨1, _⟩ => exact projD_rhs_1 _ _)
  rw [el, er]

theorem bandA_apply (y : FVec Ideal S256x64 .bf16) (s : FVec Ideal S1024x64 .bf16) (r : Fin 256) (n : Fin 1024) :
    matmul dot_S256x64_S1024x64_S256x1024_1_1_0_0_n_n none y s (constant (F := Ideal) S256x1024 .f32 0x00000000#32) (ix2 r n)
      = ∑ d : Fin 64, y (ix2 r d) * s (ix2 n d) := by
  simp only [matmul]
  rw [Ideal.matmul_constant_zero_apply, ← Equiv.sum_comp (contrEquiv1 dot_S256x64_S1024x64_S256x1024_1_1_0_0_n_n 64 rfl rfl).symm]
  refine Finset.sum_congr rfl fun k _ => ?_
  have hk := contrEquiv1_symm_val dot_S256x64_S1024x64_S256x1024_1_1_0_0_n_n 64 rfl rfl k
  have el : dot_S256x64_S1024x64_S256x1024_1_1_0_0_n_n.lhsIdx (ix2 r n) ((contrEquiv1 dot_S256x64_S1024x64_S256x1024_1_1_0_0_n_n 64 rfl rfl).symm k) = ix2 r k := funext fun a => Fin.ext (by
    match a with
    | ⟨0, _⟩ => exact bandA_lhs_0 _ _
    | ⟨1, _⟩ => exact (bandA_lhs_1 _ _).trans hk)
  have er : dot_S256x64_S1024x64_S256x1024_1_1_0_0_n_n.rhsIdx (ix2 r n) ((contrEquiv1 dot_S256x64_S1024x64_S256x1024_1_1_0_0_n_n 64 rfl rfl).symm k) = ix2 n k := funext fun a => Fin.ext (by
    match a with
    | ⟨0, _⟩ => exact bandA_rhs_0 _ _
    | ⟨1, _⟩ => exact (bandA_rhs_1 _ _).trans hk)
  rw [el, er]

theorem bandB_apply (y : FVec Ideal S256x64 .bf16) (s : FVec Ideal S4096x64 .bf16) (r : Fin 256) (n : Fin 4096) :
    matmul dot_S256x64_S4096x64_S256x4096_1_1_0_0_n_n none y s (constant (F := Ideal) S256x4096 .f32 0x00000000#32) (ix2 r n)
      = ∑ d : Fin 64, y (ix2 r d) * s (ix2 n d) := by
  simp only [matmul]
  rw [Ideal.matmul_constant_zero_apply, ← Equiv.sum_comp (contrEquiv1 dot_S256x64_S4096x64_S256x4096_1_1_0_0_n_n 64 rfl rfl).symm]
  refine Finset.sum_congr rfl fun k _ => ?_
  have hk := contrEquiv1_symm_val dot_S256x64_S4096x64_S256x4096_1_1_0_0_n_n 64 rfl rfl k
  have el : dot_S256x64_S4096x64_S256x4096_1_1_0_0_n_n.lhsIdx (ix2 r n) ((contrEquiv1 dot_S256x64_S4096x64_S256x4096_1_1_0_0_n_n 64 rfl rfl).symm k) = ix2 r k := funext fun a => Fin.ext (by
    match a with
    | ⟨0, _⟩ => exact bandB_lhs_0 _ _
    | ⟨1, _⟩ => exact (bandB_lhs_1 _ _).trans hk)
  have er : dot_S256x64_S4096x64_S256x4096_1_1_0_0_n_n.rhsIdx (ix2 r n) ((contrEquiv1 dot_S256x64_S4096x64_S256x4096_1_1_0_0_n_n 64 rfl rfl).symm k) = ix2 n k := funext fun a => Fin.ext (by
    match a with
    | ⟨0, _⟩ => exact bandB_rhs_0 _ _
    | ⟨1, _⟩ => exact (bandB_rhs_1 _ _).trans hk)
  rw [el, er]

theorem colSlice_apply (o : Nat) (ho : o + 64 ≤ 512) (x : FVec Ideal S256x512 .bf16) (h : S256x512.Slices ![0, o] S256x64)
    (r : Fin 256) (d : Fin 64) :
    extractStridedSlice S256x64 ![0, o] x h (ix2 r d) = x (ix2 r ⟨o + d.val, by have := d.isLt; omega⟩) :=
  extractStridedSlice_apply ![0, o] x h (ix2 r d) (ix2 r ⟨o + d.val, by have := d.isLt; omega⟩) fun a =>
    match a with
    | ⟨0, _⟩ => by show r.val = 0 + r.val; omega
    | ⟨1, _⟩ => by show o + d.val = o + d.val; rfl

theorem sliceBandA_apply (o : Nat) (ho : o + 64 ≤ 512) (x : FVec Ideal S256x512 .bf16) (h : S256x512.Slices ![0, o] S256x64)
    (s : FVec Ideal S1024x64 .bf16) (r : Fin 256) (n : Fin 1024) :
    matmul dot_S256x64_S1024x64_S256x1024_1_1_0_0_n_n none (extractStridedSlice S256x64 ![0, o] x h) s
        (constant (F := Ideal) S256x1024 .f32 0x00000000#32) (ix2 r n)
      = ∑ d : Fin 64, x (ix2 r ⟨o + d.val, by have := d.isLt; omega⟩) * s (ix2 n d) :=
  (bandA_apply _ s r n).trans (Finset.sum_congr rfl fun d _ => by rw [colSlice_apply o ho x h r d])

theorem sliceBandB_apply (o : Nat) (ho : o + 64 ≤ 512) (x : FVec Ideal S256x512 .bf16) (h : S256x512.Slices ![0, o] S256x64)
    (s : FVec Ideal S4096x64 .bf16) (r : Fin 256) (n : Fin 4096) :
    matmul dot_S256x64_S4096x64_S256x4096_1_1_0_0_n_n none (extractStridedSlice S256x64 ![0, o] x h) s
        (constant (F := Ideal) S256x4096 .f32 0x00000000#32) (ix2 r n)
      = ∑ d : Fin 64, x (ix2 r ⟨o + d.val, by have := d.isLt; omega⟩) * s (ix2 n d) :=
  (bandB_apply _ s r n).trans (Finset.sum_congr rfl fun d _ => by rw [colSlice_apply o ho x h r d])

theorem proj_apply (v3 : Vec Ideal S256x2048 .f32) (v6 : Vec Ideal S2048x512 .bf16) (v9 : Vec Ideal S1x512 .f32)
    (r : Fin 256) (f : Fin 512) :
    k0_pay7 v3 v6 v9 (ix2 r f) = (∑ k : Fin 2048, v3 (ix2 r k) * v6 (ix2 k f)) + v9 (ix2 (0 : Fin 1) f) := by
  unfold k0_pay7
  rw [shapeCast_self, shapeCast_self, shapeCast_self]
  rw [truncf_apply, addf_apply, projD_apply]
  congr 1
  exact broadcastTo_apply v9 _ (ix2 r f) (ix2 (0 : Fin 1) f) fun a =>
    match a with
    | ⟨0, _⟩ => rfl
    | ⟨1, _⟩ => rfl

theorem pay8_apply (v3 : Vec Ideal S256x2048 .f32) (v6 : Vec Ideal S2048x512 .bf16) (v9 : Vec Ideal S1x512 .f32)
    (s : Vec Ideal S1024x64 .bf16) (r : Fin 256) (n : Fin 1024) :
    k0_pay8 v3 v6 v9 s (ix2 r n)
      = ∑ d : Fin 64, k0_pay7 v3 v6 v9 (ix2 r ⟨0 + d.val, by have := d.isLt; omega⟩) * s (ix2 n d) :=
  sliceBandA_apply 0 (by omega) (k0_pay7 v3 v6 v9) _ s r n

theorem pay9_apply (v3 : Vec Ideal S256x2048 .f32) (v6 : Vec Ideal S2048x512 .bf16) (v9 : Vec Ideal S1x512 .f32)
    (s : Vec Ideal S1024x64 .bf16) (r : Fin 256) (n : Fin 1024) :
    k0_pay9 v3 v6 v9 s (ix2 r n)
      = ∑ d : Fin 64, k0_pay7 v3 v6 v9 (ix2 r ⟨64 + d.val, by have := d.isLt; omega⟩) * s (ix2 n d) :=
  sliceBandA_apply 64 (by omega) (k0_pay7 v3 v6 v9) _ s r n

theorem pay10_apply (v3 : Vec Ideal S256x2048 .f32) (v6 : Vec Ideal S2048x512 .bf16) (v9 : Vec Ideal S1x512 .f32)
    (s : Vec Ideal S1024x64 .bf16) (r : Fin 256) (n : Fin 1024) :
    k0_pay10 v3 v6 v9 s (ix2 r n)
      = ∑ d : Fin 64, k0_pay7 v3 v6 v9 (ix2 r ⟨128 + d.val, by have := d.isLt; omega⟩) * s (ix2 n d) :=
  sliceBandA_apply 128 (by omega) (k0_pay7 v3 v6 v9) _ s r n

theorem pay11_apply (v3 : Vec Ideal S256x2048 .f32) (v6 : Vec Ideal S2048x512 .bf16) (v9 : Vec Ideal S1x512 .f32)
    (r : Fin 256) (d : Fin 64) :
    k0_pay11 v3 v6 v9 (ix2 r d) = k0_pay7 v3 v6 v9 (ix2 r ⟨192 + d.val, by have := d.isLt; omega⟩) :=
  colSlice_apply 192 (by omega) (k0_pay7 v3 v6 v9) Facts₀.slices_S256x512_o0_192_S256x64 r d

theorem pay1_apply (v26 : FVec Ideal S256x64 .bf16) (s : Vec Ideal S1024x64 .bf16) (r : Fin 256) (n : Fin 1024) :
    k0_pay1 v26 s (constant (F := Ideal) S256x1024 .f32 0x00000000#32) (ix2 r n) = ∑ d : Fin 64, v26 (ix2 r d) * s (ix2 n d) :=
  bandA_apply v26 s r n

theorem pay2_apply (v13 : FVec Ideal S256x512 .bf16) (s : Vec Ideal S1024x64 .bf16) (r : Fin 256) (n : Fin 1024) :
    k0_pay2 v13 s (ix2 r n) = ∑ d : Fin 64, v13 (ix2 r ⟨256 + d.val, by have := d.isLt; omega⟩) * s (ix2 n d) :=
  sliceBandA_apply 256 (by omega) v13 _ s r n

theorem pay3_apply (v13 : FVec Ideal S256x512 .bf16) (s : Vec Ideal S1024x64 .bf16) (r : Fin 256) (n : Fin 1024) :
    k0_pay3 v13 s (ix2 r n) = ∑ d : Fin 64, v13 (ix2 r ⟨320 + d.val, by have := d.isLt; omega⟩) * s (ix2 n d) :=
  sliceBandA_apply 320 (by omega) v13 _ s r n

theorem pay4_apply (v13 : FVec Ideal S256x512 .bf16) (s : Vec Ideal S4096x64 .bf16) (r : Fin 256) (n : Fin 4096) :
    k0_pay4 v13 s (ix2 r n) = ∑ d : Fin 64, v13 (ix2 r ⟨384 + d.val, by have := d.isLt; omega⟩) * s (ix2 n d) :=
  sliceBandB_apply 384 (by omega) v13 _ s r n

theorem pay5_apply (v13 : FVec Ideal S256x512 .bf16) (s : Vec Ideal S4096x64 .bf16) (r : Fin 256) (n : Fin 4096) :
    k0_pay5 v13 s (ix2 r n) = ∑ d : Fin 64, v13 (ix2 r ⟨448 + d.val, by have := d.isLt; omega⟩) * s (ix2 n d) :=
  sliceBandB_apply 448 (by omega) v13 _ s r n

end Cert.Val

end
-- ==== Proof.Ref.Base.lean ====
import proofs.«118228_g28106265985563_cont_9to1_1615_5_alg».proof.Proof.Gen.ReferenceIdeal.Run
import proofs.«118228_g28106265985563_cont_9to1_1615_5_alg».proof.Proof.Gen.ReferenceIdeal.Read
-- ==== Proof.LibColumn.lean ====
import Idealize.ShloMosaic.Lib.ValueLayout
import Idealize.ShloMosaic.PureOps.Ideal.Laws

namespace Cert.Lib.Column

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Val.Table.lean ====
import proofs.«118228_g28106265985563_cont_9to1_1615_5_alg».proof.Proof.Gen.KernelIdeal.Skeleton
import proofs.«118228_g28106265985563_cont_9to1_1615_5_alg».proof.Proof.Ref.Base
import proofs.«118228_g28106265985563_cont_9to1_1615_5_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.Val

open Idealize.ShloMosaic Idealize.ShloMosaic.ValueIdx

theorem eps_pos : (0 : EReal) < Ideal.ofBits .f32 0x2B8CBCCC#32 := by
  simp [Ideal.ofBits, Ideal.ieee, -EReal.coe_mul]

theorem one_word : Ideal.ofBits .f32 0x3F800000#32 = 1 := by
  simp [Ideal.ofBits, Ideal.ieee, -EReal.coe_mul]; norm_num

theorem mul_div_one (x y : EReal) (hy : y ≠ 0) : x * Ideal.div 1 y = Ideal.div x y := by
  rw [Ideal.div, Ideal.div, if_neg hy, if_neg hy, one_mul]

theorem clamp_ne_zero (s : EReal) : max s (Ideal.ofBits .f32 0x2B8CBCCC#32) ≠ 0 :=
  (lt_of_lt_of_le eps_pos (le_max_right _ _)).ne'

theorem sqrt_apply {s : Shape} {φ : FTy} (a : FVec Ideal s φ) (i : s.Idx) : sqrt a i = Ideal.sqrt (a i) := rfl

theorem kernel_apply (e : Vec Ideal Cert.KernelIdeal.S14336x64 .f32) (r : Fin 14336) (d : Fin 64) :
    Cert.KernelIdeal.Gen.k0_pay6 (F := Ideal) e (ix2 r d)
      = e (ix2 r d) * Ideal.div (Ideal.ofBits .f32 0x3F800000#32)
          (max (Ideal.sqrt (∑ k : Fin 64, e (ix2 r k) * e (ix2 r k))) (Ideal.ofBits .f32 0x2B8CBCCC#32)) := by
  unfold Cert.KernelIdeal.Gen.k0_pay6
  simp only []
  rw [shapeCast_self, truncf_apply, mulf_apply, Cert.Lib.Column.broadcastTo_a1_ab_apply, divf_apply,
    maximumf_apply, broadcast_apply, broadcast_apply, sqrt_apply, Cert.Lib.Column.shapeCast_a_a1_apply]
  refine congrArg (fun t => e (ix2 r d) * Ideal.div (Ideal.ofBits .f32 0x3F800000#32)
    (max (Ideal.sqrt t) (Ideal.ofBits .f32 0x2B8CBCCC#32))) ?_
  exact (Cert.Lib.Column.rowSum_apply (mulf e e) _ _ _ _ r).trans
    (Finset.sum_congr rfl fun k _ => mulf_apply e e (ix2 r k))

theorem reference_apply (e : Vec Ideal Cert.KernelIdeal.S14336x64 .f32) (r : Fin 14336) (d : Fin 64) :
    Cert.ReferenceIdeal.Read.val_main_v4 (F := Ideal) e (ix2 r d)
      = Ideal.div (e (ix2 r d))
          (max (Ideal.sqrt (Ideal.ofBits .f32 0x00000000#32 + ∑ k : Fin 64, e (ix2 r k) * e (ix2 r k)))
            (Ideal.ofBits .f32 0x2B8CBCCC#32)) := by
  have hidx : ∀ k : Fin 64,
      Cert.ReferenceIdeal.Read.idx_main_call0_v1
        (Cert.ReferenceIdeal.Read.idx_main_call0_v2 (Cert.ReferenceIdeal.Read.idx_main_v3 (ix2 r d))) k = ix2 r k :=
    fun k => funext fun a => by
      match a with
      | ⟨0, _⟩ => rfl
      | ⟨1, _⟩ => rfl
  rw [Cert.ReferenceIdeal.Read.val_main_v4_apply, Cert.ReferenceIdeal.Read.val_main_v3_apply,
    Cert.ReferenceIdeal.Read.val_main_v2_apply, Cert.ReferenceIdeal.Read.val_main_v0_apply,
    Cert.ReferenceIdeal.Read.val_main_call0_v2_apply, Cert.ReferenceIdeal.Read.val_main_call0_v1_apply,
    Cert.ReferenceIdeal.Read.val_main_v1_apply, Cert.ReferenceIdeal.Read.val_main_cst_apply,
    Cert.ReferenceIdeal.Read.val_main_call0_cst_apply]
  simp only [Cert.ReferenceIdeal.Read.val_main_call0_v0_apply, hidx]
  rfl

theorem table_apply (e : Vec Ideal Cert.KernelIdeal.S14336x64 .f32) (r : Fin 14336) (d : Fin 64) :
    Cert.KernelIdeal.Gen.k0_pay6 (F := Ideal) e (ix2 r d)
      = Cert.ReferenceIdeal.Read.val_main_v4 (F := Ideal) e (ix2 r d) := by
  rw [kernel_apply, reference_apply, one_word, Ideal.ofBits_zero_f32, zero_add]
  exact mul_div_one _ _ (clamp_ne_zero _)

end Cert.Val

end
-- ==== Proof.Val.RefRead.lean ====
import proofs.«118228_g28106265985563_cont_9to1_1615_5_alg».proof.Proof.Ref.Base
import Idealize.ShloMosaic.Lib.ValueIdx
import Idealize.ShloMosaic.PureOps.Ideal

noncomputable section

open scoped BigOperators

namespace Cert.Val

open Cert.ReferenceIdeal Cert.ReferenceIdeal.Read Idealize.ShloMosaic Idealize.ShloMosaic.ValueIdx

theorem ref_proj_all
    (x0 : (⟨S2x2048x2048, .f32⟩ : BufTy).Contents (Elt Ideal)) (x1 : (⟨S2048x384, .f32⟩ : BufTy).Contents (Elt Ideal))
    (x2 : (⟨S384, .f32⟩ : BufTy).Contents (Elt Ideal)) (b : Fin 2) (s : Fin 2048) (f : Fin 384) :
    val_main_v8 (F := Ideal) x0 x1 x2 (ix3 b s f)
      = (∑ k : Fin 2048, x0 (ix3 b s k) * x1 (ix2 k f)) + x2 (ix1 f) := by
  rw [val_main_v8_apply, val_main_v5_apply, val_main_v7_apply, val_main_v6_apply]
  have hb : idx_main_v6 (idx_main_v7 (ix3 b s f)) = ix1 f :=
    funext fun a => Fin.ext (by match a with | ⟨0, _⟩ => rfl)
  rw [hb]
  refine congrArg (· + x2 (ix1 f)) (Finset.sum_congr rfl fun k _ => ?_)
  have hl : lidx_main_v5 (ix3 b s f) k = ix3 b s k :=
    funext fun a => Fin.ext (by match a with | ⟨0, _⟩ => rfl | ⟨1, _⟩ => rfl | ⟨2, _⟩ => rfl)
  have hr : ridx_main_v5 (ix3 b s f) k = ix2 k f :=
    funext fun a => Fin.ext (by match a with | ⟨0, _⟩ => rfl | ⟨1, _⟩ => rfl)
  rw [hl, hr]

theorem ref_proj_fk
    (x0 : (⟨S2x2048x2048, .f32⟩ : BufTy).Contents (Elt Ideal)) (x3 : (⟨S2048x64, .f32⟩ : BufTy).Contents (Elt Ideal))
    (x4 : (⟨S64, .f32⟩ : BufTy).Contents (Elt Ideal)) (b : Fin 2) (s : Fin 2048) (d : Fin 64) :
    val_main_v30 (F := Ideal) x0 x3 x4 (ix3 b s d)
      = (∑ k : Fin 2048, x0 (ix3 b s k) * x3 (ix2 k d)) + x4 (ix1 d) := by
  rw [val_main_v30_apply, val_main_v27_apply, val_main_v29_apply, val_main_v28_apply]
  have hb : idx_main_v28 (idx_main_v29 (ix3 b s d)) = ix1 d :=
    funext fun a => Fin.ext (by match a with | ⟨0, _⟩ => rfl)
  rw [hb]
  refine congrArg (· + x4 (ix1 d)) (Finset.sum_congr rfl fun k _ => ?_)
  have hl : lidx_main_v27 (ix3 b s d) k = ix3 b s k :=
    funext fun a => Fin.ext (by match a with | ⟨0, _⟩ => rfl | ⟨1, _⟩ => rfl | ⟨2, _⟩ => rfl)
  have hr : ridx_main_v27 (ix3 b s d) k = ix2 k d :=
    funext fun a => Fin.ext (by match a with | ⟨0, _⟩ => rfl | ⟨1, _⟩ => rfl)
  rw [hl, hr]

theorem ref_proj_rk
    (x0 : (⟨S2x2048x2048, .f32⟩ : BufTy).Contents (Elt Ideal)) (x5 : (⟨S2048x64, .f32⟩ : BufTy).Contents (Elt Ideal))
    (x6 : (⟨S64, .f32⟩ : BufTy).Contents (Elt Ideal)) (b : Fin 2) (s : Fin 2048) (d : Fin 64) :
    val_main_v36 (F := Ideal) x0 x5 x6 (ix3 b s d)
      = (∑ k : Fin 2048, x0 (ix3 b s k) * x5 (ix2 k d)) + x6 (ix1 d) := by
  rw [val_main_v36_apply, val_main_v33_apply, val_main_v35_apply, val_main_v34_apply]
  have hb : idx_main_v34 (idx_main_v35 (ix3 b s d)) = ix1 d :=
    funext fun a => Fin.ext (by match a with | ⟨0, _⟩ => rfl)
  rw [hb]
  refine congrArg (· + x6 (ix1 d)) (Finset.sum_congr rfl fun k _ => ?_)
  have hl : lidx_main_v33 (ix3 b s d) k = ix3 b s k :=
    funext fun a => Fin.ext (by match a with | ⟨0, _⟩ => rfl | ⟨1, _⟩ => rfl | ⟨2, _⟩ => rfl)
  have hr : ridx_main_v33 (ix3 b s d) k = ix2 k d :=
    funext fun a => Fin.ext (by match a with | ⟨0, _⟩ => rfl | ⟨1, _⟩ => rfl)
  rw [hl, hr]

theorem ref_v16
    (x0 : (⟨S2x2048x2048, .f32⟩ : BufTy).Contents (Elt Ideal)) (x1 : (⟨S2048x384, .f32⟩ : BufTy).Contents (Elt Ideal))
    (x2 : (⟨S384, .f32⟩ : BufTy).Contents (Elt Ideal)) (x7 : (⟨S14336x64, .f32⟩ : BufTy).Contents (Elt Ideal))
    (b : Fin 2) (s : Fin 2048) (n : Fin 1024) :
    val_main_v16 (F := Ideal) x0 x1 x2 x7 (ix3 b s n)
      = ∑ d : Fin 64, val_main_v8 (F := Ideal) x0 x1 x2 (ix3 b s ⟨0 + d.val, by have := d.isLt; omega⟩)
          * val_main_v4 (F := Ideal) x7 (ix2 ⟨0 + n.val, by have := n.isLt; omega⟩ d) := by
  rw [val_main_v16_apply]
  refine Finset.sum_congr rfl fun d _ => ?_
  rw [val_main_v9_apply, val_main_v15_apply]
  have hl : idx_main_v9 (lidx_main_v16 (ix3 b s n) d) = ix3 b s ⟨0 + d.val, by have := d.isLt; omega⟩ :=
    funext fun a => Fin.ext (by match a with | ⟨0, _⟩ => rfl | ⟨1, _⟩ => rfl | ⟨2, _⟩ => show d.val = 0 + d.val; omega)
  have hr : idx_main_v15 (ridx_main_v16 (ix3 b s n) d) = ix2 ⟨0 + n.val, by have := n.isLt; omega⟩ d :=
    funext fun a => Fin.ext (by match a with | ⟨0, _⟩ => show n.val = 0 + n.val; omega | ⟨1, _⟩ => rfl)
  rw [hl, hr]

theorem ref_v18
    (x0 : (⟨S2x2048x2048, .f32⟩ : BufTy).Contents (Elt Ideal)) (x1 : (⟨S2048x384, .f32⟩ : BufTy).Contents (Elt Ideal))
    (x2 : (⟨S384, .f32⟩ : BufTy).Contents (Elt Ideal)) (x7 : (⟨S14336x64, .f32⟩ : BufTy).Contents (Elt Ideal))
    (b : Fin 2) (s : Fin 2048) (n : Fin 1024) :
    val_main_v18 (F := Ideal) x0 x1 x2 x7 (ix3 b s n)
      = ∑ d : Fin 64, val_main_v8 (F := Ideal) x0 x1 x2 (ix3 b s ⟨64 + d.val, by have := d.isLt; omega⟩)
          * val_main_v4 (F := Ideal) x7 (ix2 ⟨1024 + n.val, by have := n.isLt; omega⟩ d) := by
  rw [val_main_v18_apply]
  refine Finset.sum_congr rfl fun d _ => ?_
  rw [val_main_v10_apply, val_main_v17_apply]
  have hl : idx_main_v10 (lidx_main_v18 (ix3 b s n) d) = ix3 b s ⟨64 + d.val, by have := d.isLt; omega⟩ :=
    funext fun a => Fin.ext (by match a with | ⟨0, _⟩ => rfl | ⟨1, _⟩ => rfl | ⟨2, _⟩ => rfl)
  have hr : idx_main_v17 (ridx_main_v18 (ix3 b s n) d) = ix2 ⟨1024 + n.val, by have := n.isLt; omega⟩ d :=
    funext fun a => Fin.ext (by match a with | ⟨0, _⟩ => rfl | ⟨1, _⟩ => rfl)
  rw [hl, hr]

theorem ref_v20
    (x0 : (⟨S2x2048x2048, .f32⟩ : BufTy).Contents (Elt Ideal)) (x1 : (⟨S2048x384, .f32⟩ : BufTy).Contents (Elt Ideal))
    (x2 : (⟨S384, .f32⟩ : BufTy).Contents (Elt Ideal)) (x7 : (⟨S14336x64, .f32⟩ : BufTy).Contents (Elt Ideal))
    (b : Fin 2) (s : Fin 2048) (n : Fin 1024) :
    val_main_v20 (F := Ideal) x0 x1 x2 x7 (ix3 b s n)
      = ∑ d : Fin 64, val_main_v8 (F := Ideal) x0 x1 x2 (ix3 b s ⟨128 + d.val, by have := d.isLt; omega⟩)
          * val_main_v4 (F := Ideal) x7 (ix2 ⟨2048 + n.val, by have := n.isLt; omega⟩ d) := by
  rw [val_main_v20_apply]
  refine Finset.sum_congr rfl fun d _ => ?_
  rw [val_main_v11_apply, val_main_v19_apply]
  have hl : idx_main_v11 (lidx_main_v20 (ix3 b s n) d) = ix3 b s ⟨128 + d.val, by have := d.isLt; omega⟩ :=
    funext fun a => Fin.ext (by match a with | ⟨0, _⟩ => rfl | ⟨1, _⟩ => rfl | ⟨2, _⟩ => rfl)
  have hr : idx_main_v19 (ridx_main_v20 (ix3 b s n) d) = ix2 ⟨2048 + n.val, by have := n.isLt; omega⟩ d :=
    funext fun a => Fin.ext (by match a with | ⟨0, _⟩ => rfl | ⟨1, _⟩ => rfl)
  rw [hl, hr]

theorem ref_v22
    (x0 : (⟨S2x2048x2048, .f32⟩ : BufTy).Contents (Elt Ideal)) (x1 : (⟨S2048x384, .f32⟩ : BufTy).Contents (Elt Ideal))
    (x2 : (⟨S384, .f32⟩ : BufTy).Contents (Elt Ideal)) (x7 : (⟨S14336x64, .f32⟩ : BufTy).Contents (Elt Ideal))
    (b : Fin 2) (s : Fin 2048) (n : Fin 1024) :
    val_main_v22 (F := Ideal) x0 x1 x2 x7 (ix3 b s n)
      = ∑ d : Fin 64, val_main_v8 (F := Ideal) x0 x1 x2 (ix3 b s ⟨192 + d.val, by have := d.isLt; omega⟩)
          * val_main_v4 (F := Ideal) x7 (ix2 ⟨3072 + n.val, by have := n.isLt; omega⟩ d) := by
  rw [val_main_v22_apply]
  refine Finset.sum_congr rfl fun d _ => ?_
  rw [val_main_v12_apply, val_main_v21_apply]
  have hl : idx_main_v12 (lidx_main_v22 (ix3 b s n) d) = ix3 b s ⟨192 + d.val, by have := d.isLt; omega⟩ :=
    funext fun a => Fin.ext (by match a with | ⟨0, _⟩ => rfl | ⟨1, _⟩ => rfl | ⟨2, _⟩ => rfl)
  have hr : idx_main_v21 (ridx_main_v22 (ix3 b s n) d) = ix2 ⟨3072 + n.val, by have := n.isLt; omega⟩ d :=
    funext fun a => Fin.ext (by match a with | ⟨0, _⟩ => rfl | ⟨1, _⟩ => rfl)
  rw [hl, hr]

theorem ref_v24
    (x0 : (⟨S2x2048x2048, .f32⟩ : BufTy).Contents (Elt Ideal)) (x1 : (⟨S2048x384, .f32⟩ : BufTy).Contents (Elt Ideal))
    (x2 : (⟨S384, .f32⟩ : BufTy).Contents (Elt Ideal)) (x7 : (⟨S14336x64, .f32⟩ : BufTy).Contents (Elt Ideal))
    (b : Fin 2) (s : Fin 2048) (n : Fin 1024) :
    val_main_v24 (F := Ideal) x0 x1 x2 x7 (ix3 b s n)
      = ∑ d : Fin 64, val_main_v8 (F := Ideal) x0 x1 x2 (ix3 b s ⟨256 + d.val, by have := d.isLt; omega⟩)
          * val_main_v4 (F := Ideal) x7 (ix2 ⟨4096 + n.val, by have := n.isLt; omega⟩ d) := by
  rw [val_main_v24_apply]
  refine Finset.sum_congr rfl fun d _ => ?_
  rw [val_main_v13_apply, val_main_v23_apply]
  have hl : idx_main_v13 (lidx_main_v24 (ix3 b s n) d) = ix3 b s ⟨256 + d.val, by have := d.isLt; omega⟩ :=
    funext fun a => Fin.ext (by match a with | ⟨0, _⟩ => rfl | ⟨1, _⟩ => rfl | ⟨2, _⟩ => rfl)
  have hr : idx_main_v23 (ridx_main_v24 (ix3 b s n) d) = ix2 ⟨4096 + n.val, by have := n.isLt; omega⟩ d :=
    funext fun a => Fin.ext (by match a with | ⟨0, _⟩ => rfl | ⟨1, _⟩ => rfl)
  rw [hl, hr]

theorem ref_v26
    (x0 : (⟨S2x2048x2048, .f32⟩ : BufTy).Contents (Elt Ideal)) (x1 : (⟨S2048x384, .f32⟩ : BufTy).Contents (Elt Ideal))
    (x2 : (⟨S384, .f32⟩ : BufTy).Contents (Elt Ideal)) (x7 : (⟨S14336x64, .f32⟩ : BufTy).Contents (Elt Ideal))
    (b : Fin 2) (s : Fin 2048) (n : Fin 1024) :
    val_main_v26 (F := Ideal) x0 x1 x2 x7 (ix3 b s n)
      = ∑ d : Fin 64, val_main_v8 (F := Ideal) x0 x1 x2 (ix3 b s ⟨320 + d.val, by have := d.isLt; omega⟩)
          * val_main_v4 (F := Ideal) x7 (ix2 ⟨5120 + n.val, by have := n.isLt; omega⟩ d) := by
  rw [val_main_v26_apply]
  refine Finset.sum_congr rfl fun d _ => ?_
  rw [val_main_v14_apply, val_main_v25_apply]
  have hl : idx_main_v14 (lidx_main_v26 (ix3 b s n) d) = ix3 b s ⟨320 + d.val, by have := d.isLt; omega⟩ :=
    funext fun a => Fin.ext (by match a with | ⟨0, _⟩ => rfl | ⟨1, _⟩ => rfl | ⟨2, _⟩ => rfl)
  have hr : idx_main_v25 (ridx_main_v26 (ix3 b s n) d) = ix2 ⟨5120 + n.val, by have := n.isLt; omega⟩ d :=
    funext fun a => Fin.ext (by match a with | ⟨0, _⟩ => rfl | ⟨1, _⟩ => rfl)
  rw [hl, hr]

theorem ref_v32
    (x0 : (⟨S2x2048x2048, .f32⟩ : BufTy).Contents (Elt Ideal)) (x3 : (⟨S2048x64, .f32⟩ : BufTy).Contents (Elt Ideal))
    (x4 : (⟨S64, .f32⟩ : BufTy).Contents (Elt Ideal)) (x7 : (⟨S14336x64, .f32⟩ : BufTy).Contents (Elt Ideal))
    (b : Fin 2) (s : Fin 2048) (n : Fin 4096) :
    val_main_v32 (F := Ideal) x0 x3 x4 x7 (ix3 b s n)
      = ∑ d : Fin 64, val_main_v30 (F := Ideal) x0 x3 x4 (ix3 b s d)
          * val_main_v4 (F := Ideal) x7 (ix2 ⟨6144 + n.val, by have := n.isLt; omega⟩ d) := by
  rw [val_main_v32_apply]
  refine Finset.sum_congr rfl fun d _ => ?_
  rw [val_main_v31_apply]
  have hl : lidx_main_v32 (ix3 b s n) d = ix3 b s d :=
    funext fun a => Fin.ext (by match a with | ⟨0, _⟩ => rfl | ⟨1, _⟩ => rfl | ⟨2, _⟩ => rfl)
  have hr : idx_main_v31 (ridx_main_v32 (ix3 b s n) d) = ix2 ⟨6144 + n.val, by have := n.isLt; omega⟩ d :=
    funext fun a => Fin.ext (by match a with | ⟨0, _⟩ => rfl | ⟨1, _⟩ => rfl)
  rw [hl, hr]

theorem ref_v38
    (x0 : (⟨S2x2048x2048, .f32⟩ : BufTy).Contents (Elt Ideal)) (x5 : (⟨S2048x64, .f32⟩ : BufTy).Contents (Elt Ideal))
    (x6 : (⟨S64, .f32⟩ : BufTy).Contents (Elt Ideal)) (x7 : (⟨S14336x64, .f32⟩ : BufTy).Contents (Elt Ideal))
    (b : Fin 2) (s : Fin 2048) (n : Fin 4096) :
    val_main_v38 (F := Ideal) x0 x5 x6 x7 (ix3 b s n)
      = ∑ d : Fin 64, val_main_v36 (F := Ideal) x0 x5 x6 (ix3 b s d)
          * val_main_v4 (F := Ideal) x7 (ix2 ⟨10240 + n.val, by have := n.isLt; omega⟩ d) := by
  rw [val_main_v38_apply]
  refine Finset.sum_congr rfl fun d _ => ?_
  rw [val_main_v37_apply]
  have hl : lidx_main_v38 (ix3 b s n) d = ix3 b s d :=
    funext fun a => Fin.ext (by match a with | ⟨0, _⟩ => rfl | ⟨1, _⟩ => rfl | ⟨2, _⟩ => rfl)
  have hr : idx_main_v37 (ridx_main_v38 (ix3 b s n) d) = ix2 ⟨10240 + n.val, by have := n.isLt; omega⟩ d :=
    funext fun a => Fin.ext (by match a with | ⟨0, _⟩ => rfl | ⟨1, _⟩ => rfl)
  rw [hl, hr]

end Cert.Val
-- ==== Proof.Val.Prefix.lean ====
import proofs.«118228_g28106265985563_cont_9to1_1615_5_alg».proof.KernelIdeal
import proofs.«118228_g28106265985563_cont_9to1_1615_5_alg».proof.Proof.Gen.KernelIdeal
import Idealize.ShloMosaic.Lib.Pipeline.Value
import Idealize.ShloMosaic.Lib.ValueIdx
import Idealize.ShloMosaic.PureOps.Ideal.Laws

noncomputable section

namespace Cert.Val

open Cert.KernelIdeal Cert.KernelIdeal.Facts₀ Idealize.ShloMosaic Idealize.ShloMosaic.ValueIdx

theorem tokens_apply (x : FVec Ideal S2x2048x2048 .f32) (R : Fin 4096) (k : Fin 2048) :
    shapeCast S4096x2048 x shapeCasts_S2x2048x2048_S4096x2048 (ix2 R k)
      = x (ix3 (⟨R.val / 2048, by have := R.isLt; omega⟩ : Fin 2) (⟨R.val % 2048, by omega⟩ : Fin 2048) k) := by
  refine shapeCast_apply x _ (ix2 R k) _ ?_
  rw [Shape.rowMajor_val_three, Shape.rowMajor_val_two]
  show (R.val / 2048 * 2048 + R.val % 2048) * 2048 + k.val = R.val * 2048 + k.val
  omega

theorem weight_all (w1 : FVec Ideal S2048x384 .f32) (w3 w5 : FVec Ideal S2048x64 .f32) (k : Fin 2048) (f : Fin 384) :
    truncf .bf16 (concatenate S2048x512 1 [⟨S2048x384, w1⟩, ⟨S2048x64, w3⟩, ⟨S2048x64, w5⟩]
        concatenates_S2048x384_S2048x64_S2048x64_S2048x512_d1) bitsLt_bf16_f32
      (ix2 k (⟨f.val, by have := f.isLt; omega⟩ : Fin 512)) = w1 (ix2 k f) := by
  refine (truncf_apply (φ := .f32) (ψ := .bf16) _ bitsLt_bf16_f32 _).trans ?_
  refine concatenate_apply_piece (t := S2048x512) 1 [⟨S2048x384, w1⟩, ⟨S2048x64, w3⟩, ⟨S2048x64, w5⟩] _ _ 0 (show 0 < 3 by omega) S2048x384 w1 rfl rfl 0 rfl (ix2 k f)
    (fun b => match b with
      | ⟨0, _⟩ => fun _ => rfl
      | ⟨1, _⟩ => fun hb => absurd rfl hb) ?_
  show 0 + f.val = f.val
  omega

theorem weight_fk (w1 : FVec Ideal S2048x384 .f32) (w3 w5 : FVec Ideal S2048x64 .f32) (k : Fin 2048) (d : Fin 64) :
    truncf .bf16 (concatenate S2048x512 1 [⟨S2048x384, w1⟩, ⟨S2048x64, w3⟩, ⟨S2048x64, w5⟩]
        concatenates_S2048x384_S2048x64_S2048x64_S2048x512_d1) bitsLt_bf16_f32
      (ix2 k (⟨384 + d.val, by have := d.isLt; omega⟩ : Fin 512)) = w3 (ix2 k d) := by
  refine (truncf_apply (φ := .f32) (ψ := .bf16) _ bitsLt_bf16_f32 _).trans ?_
  refine concatenate_apply_piece (t := S2048x512) 1 [⟨S2048x384, w1⟩, ⟨S2048x64, w3⟩, ⟨S2048x64, w5⟩] _ _ 1 (show 1 < 3 by omega) S2048x64 w3 rfl rfl 384 rfl (ix2 k d)
    (fun b => match b with
      | ⟨0, _⟩ => fun _ => rfl
      | ⟨1, _⟩ => fun hb => absurd rfl hb) ?_
  show 384 + d.val = 384 + d.val
  rfl

theorem weight_rk (w1 : FVec Ideal S2048x384 .f32) (w3 w5 : FVec Ideal S2048x64 .f32) (k : Fin 2048) (d : Fin 64) :
    truncf .bf16 (concatenate S2048x512 1 [⟨S2048x384, w1⟩, ⟨S2048x64, w3⟩, ⟨S2048x64, w5⟩]
        concatenates_S2048x384_S2048x64_S2048x64_S2048x512_d1) bitsLt_bf16_f32
      (ix2 k (⟨448 + d.val, by have := d.isLt; omega⟩ : Fin 512)) = w5 (ix2 k d) := by
  refine (truncf_apply (φ := .f32) (ψ := .bf16) _ bitsLt_bf16_f32 _).trans ?_
  refine concatenate_apply_piece (t := S2048x512) 1 [⟨S2048x384, w1⟩, ⟨S2048x64, w3⟩, ⟨S2048x64, w5⟩] _ _ 2 (show 2 < 3 by omega) S2048x64 w5 rfl rfl 448 rfl (ix2 k d)
    (fun b => match b with
      | ⟨0, _⟩ => fun _ => rfl
      | ⟨1, _⟩ => fun hb => absurd rfl hb) ?_
  show 448 + d.val = 448 + d.val
  rfl

theorem bias_row_apply (v : FVec Ideal S512 .f32) (c : Fin 512) :
    shapeCast S1x512 v shapeCasts_S512_S1x512 (ix2 (0 : Fin 1) c) = v (ix1 c) := by
  refine shapeCast_apply v _ (ix2 (0 : Fin 1) c) (ix1 c) ?_
  rw [Shape.rowMajor_val_one, Shape.rowMajor_val_two]
  show c.val = 0 * 512 + c.val
  omega

theorem bias_all (b2 : FVec Ideal S384 .f32) (b4 b6 : FVec Ideal S64 .f32) (f : Fin 384) :
    shapeCast S1x512 (concatenate S512 0 [⟨S384, b2⟩, ⟨S64, b4⟩, ⟨S64, b6⟩] concatenates_S384_S64_S64_S512_d0)
        shapeCasts_S512_S1x512 (ix2 (0 : Fin 1) (⟨f.val, by have := f.isLt; omega⟩ : Fin 512)) = b2 (ix1 f) := by
  refine (bias_row_apply _ _).trans ?_
  refine concatenate_apply_piece (t := S512) 0 [⟨S384, b2⟩, ⟨S64, b4⟩, ⟨S64, b6⟩] _ _ 0 (show 0 < 3 by omega) S384 b2 rfl rfl 0 rfl (ix1 f)
    (fun b => match b with
      | ⟨0, _⟩ => fun hb => absurd rfl hb) ?_
  show 0 + f.val = f.val
  omega

theorem bias_fk (b2 : FVec Ideal S384 .f32) (b4 b6 : FVec Ideal S64 .f32) (d : Fin 64) :
    shapeCast S1x512 (concatenate S512 0 [⟨S384, b2⟩, ⟨S64, b4⟩, ⟨S64, b6⟩] concatenates_S384_S64_S64_S512_d0)
        shapeCasts_S512_S1x512 (ix2 (0 : Fin 1) (⟨384 + d.val, by have := d.isLt; omega⟩ : Fin 512)) = b4 (ix1 d) := by
  refine (bias_row_apply _ _).trans ?_
  refine concatenate_apply_piece (t := S512) 0 [⟨S384, b2⟩, ⟨S64, b4⟩, ⟨S64, b6⟩] _ _ 1 (show 1 < 3 by omega) S64 b4 rfl rfl 384 rfl (ix1 d)
    (fun b => match b with
      | ⟨0, _⟩ => fun hb => absurd rfl hb) ?_
  show 384 + d.val = 384 + d.val
  rfl

theorem bias_rk (b2 : FVec Ideal S384 .f32) (b4 b6 : FVec Ideal S64 .f32) (d : Fin 64) :
    shapeCast S1x512 (concatenate S512 0 [⟨S384, b2⟩, ⟨S64, b4⟩, ⟨S64, b6⟩] concatenates_S384_S64_S64_S512_d0)
        shapeCasts_S512_S1x512 (ix2 (0 : Fin 1) (⟨448 + d.val, by have := d.isLt; omega⟩ : Fin 512)) = b6 (ix1 d) := by
  refine (bias_row_apply _ _).trans ?_
  refine concatenate_apply_piece (t := S512) 0 [⟨S384, b2⟩, ⟨S64, b4⟩, ⟨S64, b6⟩] _ _ 2 (show 2 < 3 by omega) S64 b6 rfl rfl 448 rfl (ix1 d)
    (fun b => match b with
      | ⟨0, _⟩ => fun hb => absurd rfl hb) ?_
  show 448 + d.val = 448 + d.val
  rfl

theorem result_apply_1024 (y : FVec Ideal S4096x1024 .f32) (b : Fin 2) (s : Fin 2048) (n : Fin 1024) :
    shapeCast S2x2048x1024 y shapeCasts_S4096x1024_S2x2048x1024 (ix3 b s n)
      = y (ix2 (⟨2048 * b.val + s.val, by have := b.isLt; have := s.isLt; omega⟩ : Fin 4096) n) := by
  refine shapeCast_apply y _ (ix3 b s n) _ ?_
  rw [Shape.rowMajor_val_two, Shape.rowMajor_val_three]
  show (2048 * b.val + s.val) * 1024 + n.val = (b.val * 2048 + s.val) * 1024 + n.val
  omega

theorem result_apply_4096 (y : FVec Ideal S4096x4096 .f32) (b : Fin 2) (s : Fin 2048) (n : Fin 4096) :
    shapeCast S2x2048x4096 y shapeCasts_S4096x4096_S2x2048x4096 (ix3 b s n)
      = y (ix2 (⟨2048 * b.val + s.val, by have := b.isLt; have := s.isLt; omega⟩ : Fin 4096) n) := by
  refine shapeCast_apply y _ (ix3 b s n) _ ?_
  rw [Shape.rowMajor_val_two, Shape.rowMajor_val_three]
  show (2048 * b.val + s.val) * 4096 + n.val = (b.val * 2048 + s.val) * 4096 + n.val
  omega

end Cert.Val

end
-- ==== Proof.Val.Glue.lean ====
import proofs.«118228_g28106265985563_cont_9to1_1615_5_alg».proof.Proof.Val.Table
import proofs.«118228_g28106265985563_cont_9to1_1615_5_alg».proof.Proof.Val.RefRead
import proofs.«118228_g28106265985563_cont_9to1_1615_5_alg».proof.Proof.Val.Prefix
import Idealize.ShloMosaic.Lib.ValueIdx

noncomputable section

open scoped BigOperators

namespace Cert.Val

open Cert.KernelIdeal Cert.KernelIdeal.Facts₀ Idealize.ShloMosaic Idealize.ShloMosaic.ValueIdx

abbrev tok (x0 : FVec Ideal S2x2048x2048 .f32) : FVec Ideal S4096x2048 .f32 :=
  shapeCast S4096x2048 x0 shapeCasts_S2x2048x2048_S4096x2048

abbrev wgt (x1 : FVec Ideal S2048x384 .f32) (x3 x5 : FVec Ideal S2048x64 .f32) : FVec Ideal S2048x512 .bf16 :=
  truncf .bf16 (concatenate S2048x512 1 [⟨S2048x384, x1⟩, ⟨S2048x64, x3⟩, ⟨S2048x64, x5⟩]
    concatenates_S2048x384_S2048x64_S2048x64_S2048x512_d1) bitsLt_bf16_f32

abbrev bia (x2 : FVec Ideal S384 .f32) (x4 x6 : FVec Ideal S64 .f32) : FVec Ideal S1x512 .f32 :=
  shapeCast S1x512 (concatenate S512 0 [⟨S384, x2⟩, ⟨S64, x4⟩, ⟨S64, x6⟩] concatenates_S384_S64_S64_S512_d0)
    shapeCasts_S512_S1x512

theorem glue_pool (co ro : Nat) (hco : co + 64 ≤ 384) (hro : ro + 1024 ≤ 14336)
    (x0 : FVec Ideal S2x2048x2048 .f32) (x1 : FVec Ideal S2048x384 .f32) (x2 : FVec Ideal S384 .f32)
    (x3 x5 : FVec Ideal S2048x64 .f32) (x4 x6 : FVec Ideal S64 .f32) (x7 : Vec Ideal S14336x64 .f32)
    (R : Fin 4096) (n : Fin 1024) :
    (∑ d : Fin 64,
        ((∑ k : Fin 2048, tok x0 (ix2 R k) * wgt x1 x3 x5 (ix2 k (⟨co + d.val, by have := d.isLt; omega⟩ : Fin 512)))
            + bia x2 x4 x6 (ix2 (0 : Fin 1) (⟨co + d.val, by have := d.isLt; omega⟩ : Fin 512)))
          * Cert.KernelIdeal.Gen.k0_pay6 (F := Ideal) x7 (ix2 (⟨ro + n.val, by have := n.isLt; omega⟩ : Fin 14336) d))
      = ∑ d : Fin 64,
          Cert.ReferenceIdeal.Read.val_main_v8 (F := Ideal) x0 x1 x2
              (ix3 (⟨R.val / 2048, by have := R.isLt; omega⟩ : Fin 2) (⟨R.val % 2048, by omega⟩ : Fin 2048)
                (⟨co + d.val, by have := d.isLt; omega⟩ : Fin 384))
            * Cert.ReferenceIdeal.Read.val_main_v4 (F := Ideal) x7
                (ix2 (⟨ro + n.val, by have := n.isLt; omega⟩ : Fin 14336) d) := by
  refine Finset.sum_congr rfl fun d _ => ?_
  rw [ref_proj_all, table_apply]
  congr 2
  · refine Finset.sum_congr rfl fun k _ => ?_
    exact congrArg₂ (· * ·) (tokens_apply x0 R k)
      (weight_all x1 x3 x5 k (⟨co + d.val, by have := d.isLt; omega⟩ : Fin 384))
  · exact bias_all x2 x4 x6 (⟨co + d.val, by have := d.isLt; omega⟩ : Fin 384)

theorem glue_v16 (x0 : FVec Ideal S2x2048x2048 .f32) (x1 : FVec Ideal S2048x384 .f32) (x2 : FVec Ideal S384 .f32)
    (x3 x5 : FVec Ideal S2048x64 .f32) (x4 x6 : FVec Ideal S64 .f32) (x7 : Vec Ideal S14336x64 .f32)
    (R : Fin 4096) (n : Fin 1024) :
    (∑ d : Fin 64,
        ((∑ k : Fin 2048, tok x0 (ix2 R k) * wgt x1 x3 x5 (ix2 k (⟨0 + d.val, by have := d.isLt; omega⟩ : Fin 512)))
            + bia x2 x4 x6 (ix2 (0 : Fin 1) (⟨0 + d.val, by have := d.isLt; omega⟩ : Fin 512)))
          * Cert.KernelIdeal.Gen.k0_pay6 (F := Ideal) x7 (ix2 (⟨0 + n.val, by have := n.isLt; omega⟩ : Fin 14336) d))
      = Cert.ReferenceIdeal.Read.val_main_v16 (F := Ideal) x0 x1 x2 x7
          (ix3 (⟨R.val / 2048, by have := R.isLt; omega⟩ : Fin 2) (⟨R.val % 2048, by omega⟩ : Fin 2048) n) :=
  (glue_pool 0 0 (by omega) (by omega) x0 x1 x2 x3 x5 x4 x6 x7 R n).trans (ref_v16 x0 x1 x2 x7 _ _ n).symm

theorem glue_v18 (x0 : FVec Ideal S2x2048x2048 .f32) (x1 : FVec Ideal S2048x384 .f32) (x2 : FVec Ideal S384 .f32)
    (x3 x5 : FVec Ideal S2048x64 .f32) (x4 x6 : FVec Ideal S64 .f32) (x7 : Vec Ideal S14336x64 .f32)
    (R : Fin 4096) (n : Fin 1024) :
    (∑ d : Fin 64,
        ((∑ k : Fin 2048, tok x0 (ix2 R k) * wgt x1 x3 x5 (ix2 k (⟨64 + d.val, by have := d.isLt; omega⟩ : Fin 512)))
            + bia x2 x4 x6 (ix2 (0 : Fin 1) (⟨64 + d.val, by have := d.isLt; omega⟩ : Fin 512)))
          * Cert.KernelIdeal.Gen.k0_pay6 (F := Ideal) x7 (ix2 (⟨1024 + n.val, by have := n.isLt; omega⟩ : Fin 14336) d))
      = Cert.ReferenceIdeal.Read.val_main_v18 (F := Ideal) x0 x1 x2 x7
          (ix3 (⟨R.val / 2048, by have := R.isLt; omega⟩ : Fin 2) (⟨R.val % 2048, by omega⟩ : Fin 2048) n) :=
  (glue_pool 64 1024 (by omega) (by omega) x0 x1 x2 x3 x5 x4 x6 x7 R n).trans (ref_v18 x0 x1 x2 x7 _ _ n).symm

theorem glue_v20 (x0 : FVec Ideal S2x2048x2048 .f32) (x1 : FVec Ideal S2048x384 .f32) (x2 : FVec Ideal S384 .f32)
    (x3 x5 : FVec Ideal S2048x64 .f32) (x4 x6 : FVec Ideal S64 .f32) (x7 : Vec Ideal S14336x64 .f32)
    (R : Fin 4096) (n : Fin 1024) :
    (∑ d : Fin 64,
        ((∑ k : Fin 2048, tok x0 (ix2 R k) * wgt x1 x3 x5 (ix2 k (⟨128 + d.val, by have := d.isLt; omega⟩ : Fin 512)))
            + bia x2 x4 x6 (ix2 (0 : Fin 1) (⟨128 + d.val, by have := d.isLt; omega⟩ : Fin 512)))
          * Cert.KernelIdeal.Gen.k0_pay6 (F := Ideal) x7 (ix2 (⟨2048 + n.val, by have := n.isLt; omega⟩ : Fin 14336) d))
      = Cert.ReferenceIdeal.Read.val_main_v20 (F := Ideal) x0 x1 x2 x7
          (ix3 (⟨R.val / 2048, by have := R.isLt; omega⟩ : Fin 2) (⟨R.val % 2048, by omega⟩ : Fin 2048) n) :=
  (glue_pool 128 2048 (by omega) (by omega) x0 x1 x2 x3 x5 x4 x6 x7 R n).trans (ref_v20 x0 x1 x2 x7 _ _ n).symm

theorem glue_v22 (x0 : FVec Ideal S2x2048x2048 .f32) (x1 : FVec Ideal S2048x384 .f32) (x2 : FVec Ideal S384 .f32)
    (x3 x5 : FVec Ideal S2048x64 .f32) (x4 x6 : FVec Ideal S64 .f32) (x7 : Vec Ideal S14336x64 .f32)
    (R : Fin 4096) (n : Fin 1024) :
    (∑ d : Fin 64,
        ((∑ k : Fin 2048, tok x0 (ix2 R k) * wgt x1 x3 x5 (ix2 k (⟨192 + d.val, by have := d.isLt; omega⟩ : Fin 512)))
            + bia x2 x4 x6 (ix2 (0 : Fin 1) (⟨192 + d.val, by have := d.isLt; omega⟩ : Fin 512)))
          * Cert.KernelIdeal.Gen.k0_pay6 (F := Ideal) x7 (ix2 (⟨3072 + n.val, by have := n.isLt; omega⟩ : Fin 14336) d))
      = Cert.ReferenceIdeal.Read.val_main_v22 (F := Ideal) x0 x1 x2 x7
          (ix3 (⟨R.val / 2048, by have := R.isLt; omega⟩ : Fin 2) (⟨R.val % 2048, by omega⟩ : Fin 2048) n) :=
  (glue_pool 192 3072 (by omega) (by omega) x0 x1 x2 x3 x5 x4 x6 x7 R n).trans (ref_v22 x0 x1 x2 x7 _ _ n).symm

theorem glue_v24 (x0 : FVec Ideal S2x2048x2048 .f32) (x1 : FVec Ideal S2048x384 .f32) (x2 : FVec Ideal S384 .f32)
    (x3 x5 : FVec Ideal S2048x64 .f32) (x4 x6 : FVec Ideal S64 .f32) (x7 : Vec Ideal S14336x64 .f32)
    (R : Fin 4096) (n : Fin 1024) :
    (∑ d : Fin 64,
        ((∑ k : Fin 2048, tok x0 (ix2 R k) * wgt x1 x3 x5 (ix2 k (⟨256 + d.val, by have := d.isLt; omega⟩ : Fin 512)))
            + bia x2 x4 x6 (ix2 (0 : Fin 1) (⟨256 + d.val, by have := d.isLt; omega⟩ : Fin 512)))
          * Cert.KernelIdeal.Gen.k0_pay6 (F := Ideal) x7 (ix2 (⟨4096 + n.val, by have := n.isLt; omega⟩ : Fin 14336) d))
      = Cert.ReferenceIdeal.Read.val_main_v24 (F := Ideal) x0 x1 x2 x7
          (ix3 (⟨R.val / 2048, by have := R.isLt; omega⟩ : Fin 2) (⟨R.val % 2048, by omega⟩ : Fin 2048) n) :=
  (glue_pool 256 4096 (by omega) (by omega) x0 x1 x2 x3 x5 x4 x6 x7 R n).trans (ref_v24 x0 x1 x2 x7 _ _ n).symm

theorem glue_v26 (x0 : FVec Ideal S2x2048x2048 .f32) (x1 : FVec Ideal S2048x384 .f32) (x2 : FVec Ideal S384 .f32)
    (x3 x5 : FVec Ideal S2048x64 .f32) (x4 x6 : FVec Ideal S64 .f32) (x7 : Vec Ideal S14336x64 .f32)
    (R : Fin 4096) (n : Fin 1024) :
    (∑ d : Fin 64,
        ((∑ k : Fin 2048, tok x0 (ix2 R k) * wgt x1 x3 x5 (ix2 k (⟨320 + d.val, by have := d.isLt; omega⟩ : Fin 512)))
            + bia x2 x4 x6 (ix2 (0 : Fin 1) (⟨320 + d.val, by have := d.isLt; omega⟩ : Fin 512)))
          * Cert.KernelIdeal.Gen.k0_pay6 (F := Ideal) x7 (ix2 (⟨5120 + n.val, by have := n.isLt; omega⟩ : Fin 14336) d))
      = Cert.ReferenceIdeal.Read.val_main_v26 (F := Ideal) x0 x1 x2 x7
          (ix3 (⟨R.val / 2048, by have := R.isLt; omega⟩ : Fin 2) (⟨R.val % 2048, by omega⟩ : Fin 2048) n) :=
  (glue_pool 320 5120 (by omega) (by omega) x0 x1 x2 x3 x5 x4 x6 x7 R n).trans (ref_v26 x0 x1 x2 x7 _ _ n).symm

theorem glue_v32 (x0 : FVec Ideal S2x2048x2048 .f32) (x1 : FVec Ideal S2048x384 .f32) (x2 : FVec Ideal S384 .f32)
    (x3 x5 : FVec Ideal S2048x64 .f32) (x4 x6 : FVec Ideal S64 .f32) (x7 : Vec Ideal S14336x64 .f32)
    (R : Fin 4096) (n : Fin 4096) :
    (∑ d : Fin 64,
        ((∑ k : Fin 2048, tok x0 (ix2 R k) * wgt x1 x3 x5 (ix2 k (⟨384 + d.val, by have := d.isLt; omega⟩ : Fin 512)))
            + bia x2 x4 x6 (ix2 (0 : Fin 1) (⟨384 + d.val, by have := d.isLt; omega⟩ : Fin 512)))
          * Cert.KernelIdeal.Gen.k0_pay6 (F := Ideal) x7 (ix2 (⟨6144 + n.val, by have := n.isLt; omega⟩ : Fin 14336) d))
      = Cert.ReferenceIdeal.Read.val_main_v32 (F := Ideal) x0 x3 x4 x7
          (ix3 (⟨R.val / 2048, by have := R.isLt; omega⟩ : Fin 2) (⟨R.val % 2048, by omega⟩ : Fin 2048) n) := by
  refine Eq.trans (Finset.sum_congr rfl fun d _ => ?_) (ref_v32 x0 x3 x4 x7 _ _ n).symm
  rw [ref_proj_fk, table_apply]
  congr 2
  · exact Finset.sum_congr rfl fun k _ => congrArg₂ (· * ·) (tokens_apply x0 R k) (weight_fk x1 x3 x5 k d)
  · exact bias_fk x2 x4 x6 d

theorem glue_v38 (x0 : FVec Ideal S2x2048x2048 .f32) (x1 : FVec Ideal S2048x384 .f32) (x2 : FVec Ideal S384 .f32)
    (x3 x5 : FVec Ideal S2048x64 .f32) (x4 x6 : FVec Ideal S64 .f32) (x7 : Vec Ideal S14336x64 .f32)
    (R : Fin 4096) (n : Fin 4096) :
    (∑ d : Fin 64,
        ((∑ k : Fin 2048, tok x0 (ix2 R k) * wgt x1 x3 x5 (ix2 k (⟨448 + d.val, by have := d.isLt; omega⟩ : Fin 512)))
            + bia x2 x4 x6 (ix2 (0 : Fin 1) (⟨448 + d.val, by have := d.isLt; omega⟩ : Fin 512)))
          * Cert.KernelIdeal.Gen.k0_pay6 (F := Ideal) x7 (ix2 (⟨10240 + n.val, by have := n.isLt; omega⟩ : Fin 14336) d))
      = Cert.ReferenceIdeal.Read.val_main_v38 (F := Ideal) x0 x5 x6 x7
          (ix3 (⟨R.val / 2048, by have := R.isLt; omega⟩ : Fin 2) (⟨R.val % 2048, by omega⟩ : Fin 2048) n) := by
  refine Eq.trans (Finset.sum_congr rfl fun d _ => ?_) (ref_v38 x0 x5 x6 x7 _ _ n).symm
  rw [ref_proj_rk, table_apply]
  congr 2
  · exact Finset.sum_congr rfl fun k _ => congrArg₂ (· * ·) (tokens_apply x0 R k) (weight_rk x1 x3 x5 k d)
  · exact bias_rk x2 x4 x6 d

end Cert.Val

end
-- ==== Proof.KI.Val.BlockVal.lean ====
import proofs.«118228_g28106265985563_cont_9to1_1615_5_alg».proof.Proof.KI.Val.Points
import proofs.«118228_g28106265985563_cont_9to1_1615_5_alg».proof.Proof.KI.Val.Entry
import proofs.«118228_g28106265985563_cont_9to1_1615_5_alg».proof.Proof.Val.KerPay
import proofs.«118228_g28106265985563_cont_9to1_1615_5_alg».proof.Proof.Val.Glue

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

theorem row_lt (t : Fin cfg0.N) (r : Fin 256) : 256 * t.val + r.val < 4096 := by
  have := t.isLt; have : cfg0.N = 16 := N_0; have := r.isLt; omega

theorem projblk (c : Dev nD) (t : Fin cfg0.N) (r : Fin 256) (f : Fin 512) :
    k0_pay7 (iblk m c 0 t) (iblk m c 1 t) (iblk m c 2 t) (ix2 r f)
      = (∑ k : Fin 2048,
            Cert.Val.tok (m ((c : Thread nD τ).loc main_arg0)) (ix2 (⟨256 * t.val + r.val, row_lt t r⟩ : Fin 4096) k)
              * Cert.Val.wgt (m ((c : Thread nD τ).loc main_arg1)) (m ((c : Thread nD τ).loc main_arg3))
                  (m ((c : Thread nD τ).loc main_arg5)) (ix2 k f))
          + Cert.Val.bia (m ((c : Thread nD τ).loc main_arg2)) (m ((c : Thread nD τ).loc main_arg4))
              (m ((c : Thread nD τ).loc main_arg6)) (ix2 (0 : Fin 1) f) := by
  refine (Cert.Val.proj_apply (iblk m c 0 t) (iblk m c 1 t) (iblk m c 2 t) r f).trans ?_
  refine congrArg₂ (· + ·) (Finset.sum_congr rfl fun k _ => congrArg₂ (· * ·) ?_ ?_) ?_
  · exact (iblk0_apply m c t r k).trans (congrFun (V_main_v0 m c) _)
  · exact congrFun ((iblk1_eq m c t).trans (V_main_v2 m c)) _
  · exact congrFun ((iblk2_eq m c t).trans (V_main_v4 m c)) _

theorem pool_sum (c : Dev nD) (t : Fin cfg0.N) (r : Fin 256) (co ro N : ℕ) (hco : co + 64 ≤ 512) (hro : ro + N ≤ 14336)
    (B : Vec Ideal (⟨2, ![N, 64]⟩ : Shape) .bf16)
    (hB : ∀ (n : Fin N) (d : Fin 64), B (ix2 n d)
      = k0_pay6 (F := Ideal) (m ((c : Thread nD τ).loc main_arg7)) (ix2 (⟨ro + n.val, by have := n.isLt; omega⟩ : Fin 14336) d))
    (n : Fin N) :
    (∑ d : Fin 64, k0_pay7 (iblk m c 0 t) (iblk m c 1 t) (iblk m c 2 t)
          (ix2 r (⟨co + d.val, by have := d.isLt; omega⟩ : Fin 512)) * B (ix2 n d))
      = ∑ d : Fin 64,
          ((∑ k : Fin 2048,
                Cert.Val.tok (m ((c : Thread nD τ).loc main_arg0)) (ix2 (⟨256 * t.val + r.val, row_lt t r⟩ : Fin 4096) k)
                  * Cert.Val.wgt (m ((c : Thread nD τ).loc main_arg1)) (m ((c : Thread nD τ).loc main_arg3))
                      (m ((c : Thread nD τ).loc main_arg5)) (ix2 k (⟨co + d.val, by have := d.isLt; omega⟩ : Fin 512)))
              + Cert.Val.bia (m ((c : Thread nD τ).loc main_arg2)) (m ((c : Thread nD τ).loc main_arg4))
                  (m ((c : Thread nD τ).loc main_arg6)) (ix2 (0 : Fin 1) (⟨co + d.val, by have := d.isLt; omega⟩ : Fin 512)))
            * k0_pay6 (F := Ideal) (m ((c : Thread nD τ).loc main_arg7))
                (ix2 (⟨ro + n.val, by have := n.isLt; omega⟩ : Fin 14336) d) :=
  Finset.sum_congr rfl fun d _ =>
    congrArg₂ (· * ·) (projblk m c t r (⟨co + d.val, by have := d.isLt; omega⟩ : Fin 512)) (hB n d)

theorem payval_4 (c : Dev nD) (t : Fin cfg0.N) (r : Fin 256) (n : Fin 1024) (B : Vec Ideal S1024x64 .bf16)
    (hB : ∀ (n : Fin 1024) (d : Fin 64), B (ix2 n d)
      = k0_pay6 (F := Ideal) (m ((c : Thread nD τ).loc main_arg7)) (ix2 (⟨0 + n.val, by have := n.isLt; omega⟩ : Fin 14336) d)) :
    k0_pay8 (iblk m c 0 t) (iblk m c 1 t) (iblk m c 2 t) B (ix2 r n)
      = Cert.ReferenceIdeal.Read.val_main_v16 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) := by
  refine (Cert.Val.pay8_apply (iblk m c 0 t) (iblk m c 1 t) (iblk m c 2 t) B r n).trans ?_
  refine (pool_sum m c t r 0 0 1024 (by omega) (by omega) B hB n).trans ?_
  exact Cert.Val.glue_v16 (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg4)) (m ((c : Thread nD τ).loc main_arg6)) (m ((c : Thread nD τ).loc main_arg7))
    (⟨256 * t.val + r.val, row_lt t r⟩ : Fin 4096) n

theorem payval_5 (c : Dev nD) (t : Fin cfg0.N) (r : Fin 256) (n : Fin 1024) (B : Vec Ideal S1024x64 .bf16)
    (hB : ∀ (n : Fin 1024) (d : Fin 64), B (ix2 n d)
      = k0_pay6 (F := Ideal) (m ((c : Thread nD τ).loc main_arg7)) (ix2 (⟨1024 + n.val, by have := n.isLt; omega⟩ : Fin 14336) d)) :
    k0_pay9 (iblk m c 0 t) (iblk m c 1 t) (iblk m c 2 t) B (ix2 r n)
      = Cert.ReferenceIdeal.Read.val_main_v18 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) := by
  refine (Cert.Val.pay9_apply (iblk m c 0 t) (iblk m c 1 t) (iblk m c 2 t) B r n).trans ?_
  refine (pool_sum m c t r 64 1024 1024 (by omega) (by omega) B hB n).trans ?_
  exact Cert.Val.glue_v18 (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg4)) (m ((c : Thread nD τ).loc main_arg6)) (m ((c : Thread nD τ).loc main_arg7))
    (⟨256 * t.val + r.val, row_lt t r⟩ : Fin 4096) n

theorem payval_6 (c : Dev nD) (t : Fin cfg0.N) (r : Fin 256) (n : Fin 1024) (B : Vec Ideal S1024x64 .bf16)
    (hB : ∀ (n : Fin 1024) (d : Fin 64), B (ix2 n d)
      = k0_pay6 (F := Ideal) (m ((c : Thread nD τ).loc main_arg7)) (ix2 (⟨2048 + n.val, by have := n.isLt; omega⟩ : Fin 14336) d)) :
    k0_pay10 (iblk m c 0 t) (iblk m c 1 t) (iblk m c 2 t) B (ix2 r n)
      = Cert.ReferenceIdeal.Read.val_main_v20 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) := by
  refine (Cert.Val.pay10_apply (iblk m c 0 t) (iblk m c 1 t) (iblk m c 2 t) B r n).trans ?_
  refine (pool_sum m c t r 128 2048 1024 (by omega) (by omega) B hB n).trans ?_
  exact Cert.Val.glue_v20 (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg4)) (m ((c : Thread nD τ).loc main_arg6)) (m ((c : Thread nD τ).loc main_arg7))
    (⟨256 * t.val + r.val, row_lt t r⟩ : Fin 4096) n

theorem payval_7 (c : Dev nD) (t : Fin cfg0.N) (r : Fin 256) (n : Fin 1024) (B : Vec Ideal S1024x64 .bf16)
    (hB : ∀ (n : Fin 1024) (d : Fin 64), B (ix2 n d)
      = k0_pay6 (F := Ideal) (m ((c : Thread nD τ).loc main_arg7)) (ix2 (⟨3072 + n.val, by have := n.isLt; omega⟩ : Fin 14336) d)) :
    k0_pay1 (k0_pay11 (iblk m c 0 t) (iblk m c 1 t) (iblk m c 2 t)) B (constant (F := Ideal) S256x1024 .f32 0x00000000#32) (ix2 r n)
      = Cert.ReferenceIdeal.Read.val_main_v22 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) := by
  refine (Cert.Val.pay1_apply (k0_pay11 (iblk m c 0 t) (iblk m c 1 t) (iblk m c 2 t)) B r n).trans ?_
  refine Eq.trans (Finset.sum_congr rfl fun d _ => congrArg (· * B (ix2 n d))
    (Cert.Val.pay11_apply (iblk m c 0 t) (iblk m c 1 t) (iblk m c 2 t) r d)) ?_
  refine (pool_sum m c t r 192 3072 1024 (by omega) (by omega) B hB n).trans ?_
  exact Cert.Val.glue_v22 (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg4)) (m ((c : Thread nD τ).loc main_arg6)) (m ((c : Thread nD τ).loc main_arg7))
    (⟨256 * t.val + r.val, row_lt t r⟩ : Fin 4096) n

theorem payval_8 (c : Dev nD) (t : Fin cfg0.N) (r : Fin 256) (n : Fin 1024) (B : Vec Ideal S1024x64 .bf16)
    (hB : ∀ (n : Fin 1024) (d : Fin 64), B (ix2 n d)
      = k0_pay6 (F := Ideal) (m ((c : Thread nD τ).loc main_arg7)) (ix2 (⟨4096 + n.val, by have := n.isLt; omega⟩ : Fin 14336) d)) :
    k0_pay2 (k0_pay7 (iblk m c 0 t) (iblk m c 1 t) (iblk m c 2 t)) B (ix2 r n)
      = Cert.ReferenceIdeal.Read.val_main_v24 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) := by
  refine (Cert.Val.pay2_apply (k0_pay7 (iblk m c 0 t) (iblk m c 1 t) (iblk m c 2 t)) B r n).trans ?_
  refine (pool_sum m c t r 256 4096 1024 (by omega) (by omega) B hB n).trans ?_
  exact Cert.Val.glue_v24 (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg4)) (m ((c : Thread nD τ).loc main_arg6)) (m ((c : Thread nD τ).loc main_arg7))
    (⟨256 * t.val + r.val, row_lt t r⟩ : Fin 4096) n

theorem payval_9 (c : Dev nD) (t : Fin cfg0.N) (r : Fin 256) (n : Fin 1024) (B : Vec Ideal S1024x64 .bf16)
    (hB : ∀ (n : Fin 1024) (d : Fin 64), B (ix2 n d)
      = k0_pay6 (F := Ideal) (m ((c : Thread nD τ).loc main_arg7)) (ix2 (⟨5120 + n.val, by have := n.isLt; omega⟩ : Fin 14336) d)) :
    k0_pay3 (k0_pay7 (iblk m c 0 t) (iblk m c 1 t) (iblk m c 2 t)) B (ix2 r n)
      = Cert.ReferenceIdeal.Read.val_main_v26 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) := by
  refine (Cert.Val.pay3_apply (k0_pay7 (iblk m c 0 t) (iblk m c 1 t) (iblk m c 2 t)) B r n).trans ?_
  refine (pool_sum m c t r 320 5120 1024 (by omega) (by omega) B hB n).trans ?_
  exact Cert.Val.glue_v26 (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg4)) (m ((c : Thread nD τ).loc main_arg6)) (m ((c : Thread nD τ).loc main_arg7))
    (⟨256 * t.val + r.val, row_lt t r⟩ : Fin 4096) n

theorem payval_10 (c : Dev nD) (t : Fin cfg0.N) (r : Fin 256) (n : Fin 4096) (B : Vec Ideal S4096x64 .bf16)
    (hB : ∀ (n : Fin 4096) (d : Fin 64), B (ix2 n d)
      = k0_pay6 (F := Ideal) (m ((c : Thread nD τ).loc main_arg7)) (ix2 (⟨6144 + n.val, by have := n.isLt; omega⟩ : Fin 14336) d)) :
    k0_pay4 (k0_pay7 (iblk m c 0 t) (iblk m c 1 t) (iblk m c 2 t)) B (ix2 r n)
      = Cert.ReferenceIdeal.Read.val_main_v32 (F := Ideal) (m ((c : Thread nD τ).loc main_arg0))
          (m ((c : Thread nD τ).loc main_arg3)) (m ((c : Thread nD τ).loc main_arg4)) (m ((c : Thread nD τ).loc main_arg7))
          (ix3 (⟨(256 * t.val + r.val) / 2048, by have := row_lt t r; omega⟩ : Fin 2)
            (⟨(256 * t.val + r.val) % 2048, by omega⟩ : Fin 2048) n) := by
  refine (Cert.Val.pay4_apply (k0_pay7 (iblk m c 0 t) (iblk m c 1 t) (iblk m c 2 t)) B r n).trans ?_
  refine (pool_sum m c t r 384 6144 4096 (by omega) (by omega) B hB n).trans ?_
  exact Cert.Val.glue_v32 (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg4)) (m ((c : Thread nD τ).loc main_arg6)) (m ((c : Thread nD τ).loc main_arg7))
    (⟨256 * t.val + r.val, row_lt t r⟩ : Fin 4096) n

theorem payval_11 (c : Dev nD) (t : Fin cfg0.N) (r : Fin 256) (n : Fin 4096) (B : Vec Ideal S4096x64 .bf16)
    (hB : ∀ (n : Fin 4096) (d : Fin 64), B (ix2 n d)
      = k0_pay6 (F := Ideal) (m ((c : Thread nD τ).loc main_arg7)) (ix2 (⟨10240 + n.val, by have := n.isLt; omega⟩ : Fin 14336) d)) :
    k0_pay5 (k0_pay7 (iblk m c 0 t) (iblk m c 1 t) (iblk m c 2 t)) B (ix2 r n)
      = Cert.ReferenceIdeal.Read.val_main_v38 (F := Ideal) (m ((c : Thread nD τ).loc main_arg0))
          (m ((c : Thread nD τ).loc main_arg5)) (m ((c : Thread nD τ).loc main_arg6)) (m ((c : Thread nD τ).loc main_arg7))
          (ix3 (⟨(256 * t.val + r.val) / 2048, by have := row_lt t r; omega⟩ : Fin 2)
            (⟨(256 * t.val + r.val) % 2048, by omega⟩ : Fin 2048) n) := by
  refine (Cert.Val.pay5_apply (k0_pay7 (iblk m c 0 t) (iblk m c 1 t) (iblk m c 2 t)) B r n).trans ?_
  refine (pool_sum m c t r 448 10240 4096 (by omega) (by omega) B hB n).trans ?_
  exact Cert.Val.glue_v38 (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg4)) (m ((c : Thread nD τ).loc main_arg6)) (m ((c : Thread nD τ).loc main_arg7))
    (⟨256 * t.val + r.val, row_lt t r⟩ : Fin 4096) n

theorem blockval_4 (c : Dev nD) (t : Fin cfg0.N) (r : Fin 256) (n : Fin 1024) :
    (outsAt0 (F := Ideal) m c t.val t.isLt).1 (ix2 r n)
      = Cert.ReferenceIdeal.Read.val_main_v16 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) :=
  (congrFun (comp_4 m c t) (ix2 r n)).trans
    (payval_4 m c t r n (band 0 (k0_pay6 (m ((c : Thread nD τ).loc main_arg7))))
      (band_apply 0 (by omega) (k0_pay6 (m ((c : Thread nD τ).loc main_arg7)))))

theorem blockval_5 (c : Dev nD) (t : Fin cfg0.N) (r : Fin 256) (n : Fin 1024) :
    (outsAt0 (F := Ideal) m c t.val t.isLt).2.1 (ix2 r n)
      = Cert.ReferenceIdeal.Read.val_main_v18 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) :=
  (congrFun (comp_5 m c t) (ix2 r n)).trans
    (payval_5 m c t r n (band 1024 (k0_pay6 (m ((c : Thread nD τ).loc main_arg7))))
      (band_apply 1024 (by omega) (k0_pay6 (m ((c : Thread nD τ).loc main_arg7)))))

theorem blockval_6 (c : Dev nD) (t : Fin cfg0.N) (r : Fin 256) (n : Fin 1024) :
    (outsAt0 (F := Ideal) m c t.val t.isLt).2.2.1 (ix2 r n)
      = Cert.ReferenceIdeal.Read.val_main_v20 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) :=
  (congrFun (comp_6 m c t) (ix2 r n)).trans
    (payval_6 m c t r n (band 2048 (k0_pay6 (m ((c : Thread nD τ).loc main_arg7))))
      (band_apply 2048 (by omega) (k0_pay6 (m ((c : Thread nD τ).loc main_arg7)))))

theorem blockval_7 (c : Dev nD) (t : Fin cfg0.N) (r : Fin 256) (n : Fin 1024) :
    (outsAt0 (F := Ideal) m c t.val t.isLt).2.2.2.1 (ix2 r n)
      = Cert.ReferenceIdeal.Read.val_main_v22 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) :=
  (congrFun (comp_7 m c t) (ix2 r n)).trans
    (payval_7 m c t r n (band 3072 (k0_pay6 (m ((c : Thread nD τ).loc main_arg7))))
      (band_apply 3072 (by omega) (k0_pay6 (m ((c : Thread nD τ).loc main_arg7)))))

theorem blockval_8 (c : Dev nD) (t : Fin cfg0.N) (r : Fin 256) (n : Fin 1024) :
    (outsAt0 (F := Ideal) m c t.val t.isLt).2.2.2.2.1 (ix2 r n)
      = Cert.ReferenceIdeal.Read.val_main_v24 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) :=
  (congrFun (comp_8 m c t) (ix2 r n)).trans
    (payval_8 m c t r n (band 4096 (k0_pay6 (m ((c : Thread nD τ).loc main_arg7))))
      (band_apply 4096 (by omega) (k0_pay6 (m ((c : Thread nD τ).loc main_arg7)))))

theorem blockval_9 (c : Dev nD) (t : Fin cfg0.N) (r : Fin 256) (n : Fin 1024) :
    (outsAt0 (F := Ideal) m c t.val t.isLt).2.2.2.2.2.1 (ix2 r n)
      = Cert.ReferenceIdeal.Read.val_main_v26 (F := Ideal) (m ((c : Thread nD τ).loc main_arg0))
          (m ((c : Thread nD τ).loc main_arg1)) (m ((c : Thread nD τ).loc main_arg2)) (m ((c : Thread nD τ).loc main_arg7))
          (ix3 (⟨(256 * t.val + r.val) / 2048, by have := row_lt t r; omega⟩ : Fin 2)
            (⟨(256 * t.val + r.val) % 2048, by omega⟩ : Fin 2048) n) :=
  (congrFun (comp_9 m c t) (ix2 r n)).trans
    (payval_9 m c t r n (band 5120 (k0_pay6 (m ((c : Thread nD τ).loc main_arg7))))
      (band_apply 5120 (by omega) (k0_pay6 (m ((c : Thread nD τ).loc main_arg7)))))

theorem blockval_10 (c : Dev nD) (t : Fin cfg0.N) (r : Fin 256) (n : Fin 4096) :
    (outsAt0 (F := Ideal) m c t.val t.isLt).2.2.2.2.2.2.1 (ix2 r n)
      = Cert.ReferenceIdeal.Read.val_main_v32 (F := Ideal) (m ((c : Thread nD τ).loc main_arg0))
          (m ((c : Thread nD τ).loc main_arg3)) (m ((c : Thread nD τ).loc main_arg4)) (m ((c : Thread nD τ).loc main_arg7))
          (ix3 (⟨(256 * t.val + r.val) / 2048, by have := row_lt t r; omega⟩ : Fin 2)
            (⟨(256 * t.val + r.val) % 2048, by omega⟩ : Fin 2048) n) :=
  (congrFun (comp_10 m c t) (ix2 r n)).trans
    (payval_10 m c t r n (band4096 6144 (k0_pay6 (m ((c : Thread nD τ).loc main_arg7))))
      (band4096_apply 6144 (by omega) (k0_pay6 (m ((c : Thread nD τ).loc main_arg7)))))

theorem blockval_11 (c : Dev nD) (t : Fin cfg0.N) (r : Fin 256) (n : Fin 4096) :
    (outsAt0 (F := Ideal) m c t.val t.isLt).2.2.2.2.2.2.2.1 (ix2 r n)
      = Cert.ReferenceIdeal.Read.val_main_v38 (F := Ideal) (m ((c : Thread nD τ).loc main_arg0))
          (m ((c : Thread nD τ).loc main_arg5)) (m ((c : Thread nD τ).loc main_arg6)) (m ((c : Thread nD τ).loc main_arg7))
          (ix3 (⟨(256 * t.val + r.val) / 2048, by have := row_lt t r; omega⟩ : Fin 2)
            (⟨(256 * t.val + r.val) % 2048, by omega⟩ : Fin 2048) n) :=
  (congrFun (comp_11 m c t) (ix2 r n)).trans
    (payval_11 m c t r n (band4096 10240 (k0_pay6 (m ((c : Thread nD τ).loc main_arg7))))
      (band4096_apply 10240 (by omega) (k0_pay6 (m ((c : Thread nD τ).loc main_arg7)))))

end Cert.KernelIdeal.Fr

end
-- ==== Proof.KI.Val.Cover.lean ====
import proofs.«118228_g28106265985563_cont_9to1_1615_5_alg».proof.Proof.KI.Outs
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Row `i0` lies in the block of 256 rows numbered `i0 / 256`, and column `i1` in the one block of all `N` columns. -/
theorem block_bounds {N x0 x1 i0 i1 : ℕ} (e0 : x0 = i0 / 256) (e1 : x1 = 0) (h1 : i1 < N) :
    (x0 * 256 ≤ i0 ∧ i0 < x0 * 256 + 256) ∧ (x1 * N ≤ i1 ∧ i1 < x1 * N + N) := by
  subst e0 e1; omega

/-- Entry `(r, n)` of block `t` is entry `(256 t + r, n)` of the array. -/
theorem block_coord {N x0 x1 t r n : ℕ} (e0 : x0 = t) (e1 : x1 = 0) :
    x0 * 256 + 1 * r = 256 * t + r ∧ x1 * N + 1 * n = n := by
  subst e0 e1; omega

theorem idxo_4 : ∀ t : Fin cfg0.N, win0_4.index t (0 : Fin 2) = t.val ∧ win0_4.index t (1 : Fin 2) = 0 :=
  (by decide +kernel : ∀ t : Fin grid0.N, _)

theorem mem_blk_4 (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v5_0).slice (win0_4.rect t)).set ↔ _
  rw [View.set_slice_whole, Rect.mem_set_unit]
  exact Iff.rfl

theorem cover_4 : ∀ i : S4096x1024.Idx, ∃ t : Fin cfg0.N, (cfg0.win 4).flush t = true ∧ i ∈ ((cfg0.win 4).blk t).view.set := by
  intro i
  have hi0 : (i 0).val < 4096 := (i 0).isLt
  have hi1 : (i 1).val < 1024 := (i 1).isLt
  have hN : cfg0.N = 16 := N_0
  refine ⟨⟨(i 0).val / 256, by omega⟩, flush0_4 _, (mem_blk_4 _ _).mpr fun a => ?_⟩
  obtain ⟨e0, e1⟩ := idxo_4 ⟨(i 0).val / 256, by omega⟩
  have h := block_bounds e0 e1 hi1
  match a with
  | ⟨0, _⟩ => exact h.1
  | ⟨1, _⟩ => exact h.2

theorem emb_4 (t : Fin cfg0.N) (r : Fin 256) (n : Fin 1024) :
    ((cfg0.win 4).blk t).view.emb (ValueIdx.ix2 r n)
      = ValueIdx.ix2 (⟨256 * t.val + r.val, by have := t.isLt; have : cfg0.N = 16 := N_0; have := r.isLt; omega⟩ : Fin 4096) n := by
  obtain ⟨e0, e1⟩ := idxo_4 t
  have h := block_coord (N := 1024) (r := r.val) (n := n.val) e0 e1
  funext a; apply Fin.ext
  match a with
  | ⟨0, _⟩ => exact h.1
  | ⟨1, _⟩ => exact h.2

theorem read_blk_4 (G : S4096x1024.Idx → Elt F .f32) (t : Fin cfg0.N) (r : Fin 256) (n : Fin 1024) :
    ((cfg0.win 4).blk t).view.read (Elt F) G (ValueIdx.ix2 r n)
      = G (ValueIdx.ix2 (⟨256 * t.val + r.val, by have := t.isLt; have : cfg0.N = 16 := N_0; have := r.isLt; omega⟩ : Fin 4096) n) := by
  show G (((cfg0.win 4).blk t).view.emb (ValueIdx.ix2 r n)) = _
  rw [emb_4]

theorem idxo_5 : ∀ t : Fin cfg0.N, win0_5.index t (0 : Fin 2) = t.val ∧ win0_5.index t (1 : Fin 2) = 0 :=
  (by decide +kernel : ∀ t : Fin grid0.N, _)

theorem mem_blk_5 (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5_1).slice (win0_5.rect t)).set ↔ _
  rw [View.set_slice_whole, Rect.mem_set_unit]
  exact Iff.rfl

theorem cover_5 : ∀ i : S4096x1024.Idx, ∃ t : Fin cfg0.N, (cfg0.win 5).flush t = true ∧ i ∈ ((cfg0.win 5).blk t).view.set := by
  intro i
  have hi0 : (i 0).val < 4096 := (i 0).isLt
  have hi1 : (i 1).val < 1024 := (i 1).isLt
  have hN : cfg0.N = 16 := N_0
  refine ⟨⟨(i 0).val / 256, by omega⟩, flush0_5 _, (mem_blk_5 _ _).mpr fun a => ?_⟩
  obtain ⟨e0, e1⟩ := idxo_5 ⟨(i 0).val / 256, by omega⟩
  have h := block_bounds e0 e1 hi1
  match a with
  | ⟨0, _⟩ => exact h.1
  | ⟨1, _⟩ => exact h.2

theorem emb_5 (t : Fin cfg0.N) (r : Fin 256) (n : Fin 1024) :
    ((cfg0.win 5).blk t).view.emb (ValueIdx.ix2 r n)
      = ValueIdx.ix2 (⟨256 * t.val + r.val, by have := t.isLt; have : cfg0.N = 16 := N_0; have := r.isLt; omega⟩ : Fin 4096) n := by
  obtain ⟨e0, e1⟩ := idxo_5 t
  have h := block_coord (N := 1024) (r := r.val) (n := n.val) e0 e1
  funext a; apply Fin.ext
  match a with
  | ⟨0, _⟩ => exact h.1
  | ⟨1, _⟩ => exact h.2

theorem read_blk_5 (G : S4096x1024.Idx → Elt F .f32) (t : Fin cfg0.N) (r : Fin 256) (n : Fin 1024) :
    ((cfg0.win 5).blk t).view.read (Elt F) G (ValueIdx.ix2 r n)
      = G (ValueIdx.ix2 (⟨256 * t.val + r.val, by have := t.isLt; have : cfg0.N = 16 := N_0; have := r.isLt; omega⟩ : Fin 4096) n) := by
  show G (((cfg0.win 5).blk t).view.emb (ValueIdx.ix2 r n)) = _
  rw [emb_5]

theorem idxo_6 : ∀ t : Fin cfg0.N, win0_6.index t (0 : Fin 2) = t.val ∧ win0_6.index t (1 : Fin 2) = 0 :=
  (by decide +kernel : ∀ t : Fin grid0.N, _)

theorem mem_blk_6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v5_2).slice (win0_6.rect t)).set ↔ _
  rw [View.set_slice_whole, Rect.mem_set_unit]
  exact Iff.rfl

theorem cover_6 : ∀ i : S4096x1024.Idx, ∃ t : Fin cfg0.N, (cfg0.win 6).flush t = true ∧ i ∈ ((cfg0.win 6).blk t).view.set := by
  intro i
  have hi0 : (i 0).val < 4096 := (i 0).isLt
  have hi1 : (i 1).val < 1024 := (i 1).isLt
  have hN : cfg0.N = 16 := N_0
  refine ⟨⟨(i 0).val / 256, by omega⟩, flush0_6 _, (mem_blk_6 _ _).mpr fun a => ?_⟩
  obtain ⟨e0, e1⟩ := idxo_6 ⟨(i 0).val / 256, by omega⟩
  have h := block_bounds e0 e1 hi1
  match a with
  | ⟨0, _⟩ => exact h.1
  | ⟨1, _⟩ => exact h.2

theorem emb_6 (t : Fin cfg0.N) (r : Fin 256) (n : Fin 1024) :
    ((cfg0.win 6).blk t).view.emb (ValueIdx.ix2 r n)
      = ValueIdx.ix2 (⟨256 * t.val + r.val, by have := t.isLt; have : cfg0.N = 16 := N_0; have := r.isLt; omega⟩ : Fin 4096) n := by
  obtain ⟨e0, e1⟩ := idxo_6 t
  have h := block_coord (N := 1024) (r := r.val) (n := n.val) e0 e1
  funext a; apply Fin.ext
  match a with
  | ⟨0, _⟩ => exact h.1
  | ⟨1, _⟩ => exact h.2

theorem read_blk_6 (G : S4096x1024.Idx → Elt F .f32) (t : Fin cfg0.N) (r : Fin 256) (n : Fin 1024) :
    ((cfg0.win 6).blk t).view.read (Elt F) G (ValueIdx.ix2 r n)
      = G (ValueIdx.ix2 (⟨256 * t.val + r.val, by have := t.isLt; have : cfg0.N = 16 := N_0; have := r.isLt; omega⟩ : Fin 4096) n) := by
  show G (((cfg0.win 6).blk t).view.emb (ValueIdx.ix2 r n)) = _
  rw [emb_6]

theorem idxo_7 : ∀ t : Fin cfg0.N, win0_7.index t (0 : Fin 2) = t.val ∧ win0_7.index t (1 : Fin 2) = 0 :=
  (by decide +kernel : ∀ t : Fin grid0.N, _)

theorem mem_blk_7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v5_3).slice (win0_7.rect t)).set ↔ _
  rw [View.set_slice_whole, Rect.mem_set_unit]
  exact Iff.rfl

theorem cover_7 : ∀ i : S4096x1024.Idx, ∃ t : Fin cfg0.N, (cfg0.win 7).flush t = true ∧ i ∈ ((cfg0.win 7).blk t).view.set := by
  intro i
  have hi0 : (i 0).val < 4096 := (i 0).isLt
  have hi1 : (i 1).val < 1024 := (i 1).isLt
  have hN : cfg0.N = 16 := N_0
  refine ⟨⟨(i 0).val / 256, by omega⟩, flush0_7 _, (mem_blk_7 _ _).mpr fun a => ?_⟩
  obtain ⟨e0, e1⟩ := idxo_7 ⟨(i 0).val / 256, by omega⟩
  have h := block_bounds e0 e1 hi1
  match a with
  | ⟨0, _⟩ => exact h.1
  | ⟨1, _⟩ => exact h.2

theorem emb_7 (t : Fin cfg0.N) (r : Fin 256) (n : Fin 1024) :
    ((cfg0.win 7).blk t).view.emb (ValueIdx.ix2 r n)
      = ValueIdx.ix2 (⟨256 * t.val + r.val, by have := t.isLt; have : cfg0.N = 16 := N_0; have := r.isLt; omega⟩ : Fin 4096) n := by
  obtain ⟨e0, e1⟩ := idxo_7 t
  have h := block_coord (N := 1024) (r := r.val) (n := n.val) e0 e1
  funext a; apply Fin.ext
  match a with
  | ⟨0, _⟩ => exact h.1
  | ⟨1, _⟩ => exact h.2

theorem read_blk_7 (G : S4096x1024.Idx → Elt F .f32) (t : Fin cfg0.N) (r : Fin 256) (n : Fin 1024) :
    ((cfg0.win 7).blk t).view.read (Elt F) G (ValueIdx.ix2 r n)
      = G (ValueIdx.ix2 (⟨256 * t.val + r.val, by have := t.isLt; have : cfg0.N = 16 := N_0; have := r.isLt; omega⟩ : Fin 4096) n) := by
  show G (((cfg0.win 7).blk t).view.emb (ValueIdx.ix2 r n)) = _
  rw [emb_7]

theorem idxo_8 : ∀ t : Fin cfg0.N, win0_8.index t (0 : Fin 2) = t.val ∧ win0_8.index t (1 : Fin 2) = 0 :=
  (by decide +kernel : ∀ t : Fin grid0.N, _)

theorem mem_blk_8 (t : Fin cfg0.N) (i : S4096x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v5_4).slice (win0_8.rect t)).set ↔ _
  rw [View.set_slice_whole, Rect.mem_set_unit]
  exact Iff.rfl

theorem cover_8 : ∀ i : S4096x1024.Idx, ∃ t : Fin cfg0.N, (cfg0.win 8).flush t = true ∧ i ∈ ((cfg0.win 8).blk t).view.set := by
  intro i
  have hi0 : (i 0).val < 4096 := (i 0).isLt
  have hi1 : (i 1).val < 1024 := (i 1).isLt
  have hN : cfg0.N = 16 := N_0
  refine ⟨⟨(i 0).val / 256, by omega⟩, flush0_8 _, (mem_blk_8 _ _).mpr fun a => ?_⟩
  obtain ⟨e0, e1⟩ := idxo_8 ⟨(i 0).val / 256, by omega⟩
  have h := block_bounds e0 e1 hi1
  match a with
  | ⟨0, _⟩ => exact h.1
  | ⟨1, _⟩ => exact h.2

theorem emb_8 (t : Fin cfg0.N) (r : Fin 256) (n : Fin 1024) :
    ((cfg0.win 8).blk t).view.emb (ValueIdx.ix2 r n)
      = ValueIdx.ix2 (⟨256 * t.val + r.val, by have := t.isLt; have : cfg0.N = 16 := N_0; have := r.isLt; omega⟩ : Fin 4096) n := by
  obtain ⟨e0, e1⟩ := idxo_8 t
  have h := block_coord (N := 1024) (r := r.val) (n := n.val) e0 e1
  funext a; apply Fin.ext
  match a with
  | ⟨0, _⟩ => exact h.1
  | ⟨1, _⟩ => exact h.2

theorem read_blk_8 (G : S4096x1024.Idx → Elt F .f32) (t : Fin cfg0.N) (r : Fin 256) (n : Fin 1024) :
    ((cfg0.win 8).blk t).view.read (Elt F) G (ValueIdx.ix2 r n)
      = G (ValueIdx.ix2 (⟨256 * t.val + r.val, by have := t.isLt; have : cfg0.N = 16 := N_0; have := r.isLt; omega⟩ : Fin 4096) n) := by
  show G (((cfg0.win 8).blk t).view.emb (ValueIdx.ix2 r n)) = _
  rw [emb_8]

theorem idxo_9 : ∀ t : Fin cfg0.N, win0_9.index t (0 : Fin 2) = t.val ∧ win0_9.index t (1 : Fin 2) = 0 :=
  (by decide +kernel : ∀ t : Fin grid0.N, _)

theorem mem_blk_9 (t : Fin cfg0.N) (i : S4096x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v5_5).slice (win0_9.rect t)).set ↔ _
  rw [View.set_slice_whole, Rect.mem_set_unit]
  exact Iff.rfl

theorem cover_9 : ∀ i : S4096x1024.Idx, ∃ t : Fin cfg0.N, (cfg0.win 9).flush t = true ∧ i ∈ ((cfg0.win 9).blk t).view.set := by
  intro i
  have hi0 : (i 0).val < 4096 := (i 0).isLt
  have hi1 : (i 1).val < 1024 := (i 1).isLt
  have hN : cfg0.N = 16 := N_0
  refine ⟨⟨(i 0).val / 256, by omega⟩, flush0_9 _, (mem_blk_9 _ _).mpr fun a => ?_⟩
  obtain ⟨e0, e1⟩ := idxo_9 ⟨(i 0).val / 256, by omega⟩
  have h := block_bounds e0 e1 hi1
  match a with
  | ⟨0, _⟩ => exact h.1
  | ⟨1, _⟩ => exact h.2

theorem emb_9 (t : Fin cfg0.N) (r : Fin 256) (n : Fin 1024) :
    ((cfg0.win 9).blk t).view.emb (ValueIdx.ix2 r n)
      = ValueIdx.ix2 (⟨256 * t.val + r.val, by have := t.isLt; have : cfg0.N = 16 := N_0; have := r.isLt; omega⟩ : Fin 4096) n := by
  obtain ⟨e0, e1⟩ := idxo_9 t
  have h := block_coord (N := 1024) (r := r.val) (n := n.val) e0 e1
  funext a; apply Fin.ext
  match a with
  | ⟨0, _⟩ => exact h.1
  | ⟨1, _⟩ => exact h.2

theorem read_blk_9 (G : S4096x1024.Idx → Elt F .f32) (t : Fin cfg0.N) (r : Fin 256) (n : Fin 1024) :
    ((cfg0.win 9).blk t).view.read (Elt F) G (ValueIdx.ix2 r n)
      = G (ValueIdx.ix2 (⟨256 * t.val + r.val, by have := t.isLt; have : cfg0.N = 16 := N_0; have := r.isLt; omega⟩ : Fin 4096) n) := by
  show G (((cfg0.win 9).blk t).view.emb (ValueIdx.ix2 r n)) = _
  rw [emb_9]

theorem idxo_10 : ∀ t : Fin cfg0.N, win0_10.index t (0 : Fin 2) = t.val ∧ win0_10.index t (1 : Fin 2) = 0 :=
  (by decide +kernel : ∀ t : Fin grid0.N, _)

theorem mem_blk_10 (t : Fin cfg0.N) (i : S4096x4096.Idx) :
    i ∈ ((cfg0.win 10).blk t).view.set ↔ ∀ a : Fin 2, win0_10.index t a * S256x4096.size a ≤ (i a).val ∧ (i a).val < win0_10.index t a * S256x4096.size a + S256x4096.size a := by
  show i ∈ ((View.whole main_v5_6).slice (win0_10.rect t)).set ↔ _
  rw [View.set_slice_whole, Rect.mem_set_unit]
  exact Iff.rfl

theorem cover_10 : ∀ i : S4096x4096.Idx, ∃ t : Fin cfg0.N, (cfg0.win 10).flush t = true ∧ i ∈ ((cfg0.win 10).blk t).view.set := by
  intro i
  have hi0 : (i 0).val < 4096 := (i 0).isLt
  have hi1 : (i 1).val < 4096 := (i 1).isLt
  have hN : cfg0.N = 16 := N_0
  refine ⟨⟨(i 0).val / 256, by omega⟩, flush0_10 _, (mem_blk_10 _ _).mpr fun a => ?_⟩
  obtain ⟨e0, e1⟩ := idxo_10 ⟨(i 0).val / 256, by omega⟩
  have h := block_bounds e0 e1 hi1
  match a with
  | ⟨0, _⟩ => exact h.1
  | ⟨1, _⟩ => exact h.2

theorem emb_10 (t : Fin cfg0.N) (r : Fin 256) (n : Fin 4096) :
    ((cfg0.win 10).blk t).view.emb (ValueIdx.ix2 r n)
      = ValueIdx.ix2 (⟨256 * t.val + r.val, by have := t.isLt; have : cfg0.N = 16 := N_0; have := r.isLt; omega⟩ : Fin 4096) n := by
  obtain ⟨e0, e1⟩ := idxo_10 t
  have h := block_coord (N := 4096) (r := r.val) (n := n.val) e0 e1
  funext a; apply Fin.ext
  match a with
  | ⟨0, _⟩ => exact h.1
  | ⟨1, _⟩ => exact h.2

theorem read_blk_10 (G : S4096x4096.Idx → Elt F .f32) (t : Fin cfg0.N) (r : Fin 256) (n : Fin 4096) :
    ((cfg0.win 10).blk t).view.read (Elt F) G (ValueIdx.ix2 r n)
      = G (ValueIdx.ix2 (⟨256 * t.val + r.val, by have := t.isLt; have : cfg0.N = 16 := N_0; have := r.isLt; omega⟩ : Fin 4096) n) := by
  show G (((cfg0.win 10).blk t).view.emb (ValueIdx.ix2 r n)) = _
  rw [emb_10]

theorem idxo_11 : ∀ t : Fin cfg0.N, win0_11.index t (0 : Fin 2) = t.val ∧ win0_11.index t (1 : Fin 2) = 0 :=
  (by decide +kernel : ∀ t : Fin grid0.N, _)

theorem mem_blk_11 (t : Fin cfg0.N) (i : S4096x4096.Idx) :
    i ∈ ((cfg0.win 11).blk t).view.set ↔ ∀ a : Fin 2, win0_11.index t a * S256x4096.size a ≤ (i a).val ∧ (i a).val < win0_11.index t a * S256x4096.size a + S256x4096.size a := by
  show i ∈ ((View.whole main_v5_7).slice (win0_11.rect t)).set ↔ _
  rw [View.set_slice_whole, Rect.mem_set_unit]
  exact Iff.rfl

theorem cover_11 : ∀ i : S4096x4096.Idx, ∃ t : Fin cfg0.N, (cfg0.win 11).flush t = true ∧ i ∈ ((cfg0.win 11).blk t).view.set := by
  intro i
  have hi0 : (i 0).val < 4096 := (i 0).isLt
  have hi1 : (i 1).val < 4096 := (i 1).isLt
  have hN : cfg0.N = 16 := N_0
  refine ⟨⟨(i 0).val / 256, by omega⟩, flush0_11 _, (mem_blk_11 _ _).mpr fun a => ?_⟩
  obtain ⟨e0, e1⟩ := idxo_11 ⟨(i 0).val / 256, by omega⟩
  have h := block_bounds e0 e1 hi1
  match a with
  | ⟨0, _⟩ => exact h.1
  | ⟨1, _⟩ => exact h.2

theorem emb_11 (t : Fin cfg0.N) (r : Fin 256) (n : Fin 4096) :
    ((cfg0.win 11).blk t).view.emb (ValueIdx.ix2 r n)
      = ValueIdx.ix2 (⟨256 * t.val + r.val, by have := t.isLt; have : cfg0.N = 16 := N_0; have := r.isLt; omega⟩ : Fin 4096) n := by
  obtain ⟨e0, e1⟩ := idxo_11 t
  have h := block_coord (N := 4096) (r := r.val) (n := n.val) e0 e1
  funext a; apply Fin.ext
  match a with
  | ⟨0, _⟩ => exact h.1
  | ⟨1, _⟩ => exact h.2

theorem read_blk_11 (G : S4096x4096.Idx → Elt F .f32) (t : Fin cfg0.N) (r : Fin 256) (n : Fin 4096) :
    ((cfg0.win 11).blk t).view.read (Elt F) G (ValueIdx.ix2 r n)
      = G (ValueIdx.ix2 (⟨256 * t.val + r.val, by have := t.isLt; have : cfg0.N = 16 := N_0; have := r.isLt; omega⟩ : Fin 4096) n) := by
  show G (((cfg0.win 11).blk t).view.emb (ValueIdx.ix2 r n)) = _
  rw [emb_11]

end Cert.KernelIdeal.Fr

end
-- ==== Proof.KI.Val.Tail.lean ====
import proofs.«118228_g28106265985563_cont_9to1_1615_5_alg».proof.Proof.KI.Outs
import Idealize.ShloMosaic.Lib.StableHlo.Run
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem tail_4 (c : Dev nD) :
    (Pipeline.afterTail₀ cfgs (dats m) 0 (V0 m) [hostOps1] c main_v6 : S2x2048x1024.Idx → Elt F .f32)
      = shapeCast S2x2048x1024 ((dats m 0 c).arrAt 4 cfg0.N : S4096x1024.Idx → Elt F .f32)
          shapeCasts_S4096x1024_S2x2048x1024 := by
  unfold Pipeline.afterTail₀
  show StableHlo.after hostOps1 _ (Proc.devRef .tc main_v6) = _
  after_results
  rw [Pipeline.withArrays_arr spec0 launch0.win.arr_inj c _ _ 4]
  funext i
  rfl

theorem tail_5 (c : Dev nD) :
    (Pipeline.afterTail₀ cfgs (dats m) 0 (V0 m) [hostOps1] c main_v7 : S2x2048x1024.Idx → Elt F .f32)
      = shapeCast S2x2048x1024 ((dats m 0 c).arrAt 5 cfg0.N : S4096x1024.Idx → Elt F .f32)
          shapeCasts_S4096x1024_S2x2048x1024 := by
  unfold Pipeline.afterTail₀
  show StableHlo.after hostOps1 _ (Proc.devRef .tc main_v7) = _
  after_results
  rw [Pipeline.withArrays_arr spec0 launch0.win.arr_inj c _ _ 5]
  funext i
  rfl

theorem tail_6 (c : Dev nD) :
    (Pipeline.afterTail₀ cfgs (dats m) 0 (V0 m) [hostOps1] c main_v8 : S2x2048x1024.Idx → Elt F .f32)
      = shapeCast S2x2048x1024 ((dats m 0 c).arrAt 6 cfg0.N : S4096x1024.Idx → Elt F .f32)
          shapeCasts_S4096x1024_S2x2048x1024 := by
  unfold Pipeline.afterTail₀
  show StableHlo.after hostOps1 _ (Proc.devRef .tc main_v8) = _
  after_results
  rw [Pipeline.withArrays_arr spec0 launch0.win.arr_inj c _ _ 6]
  funext i
  rfl

theorem tail_7 (c : Dev nD) :
    (Pipeline.afterTail₀ cfgs (dats m) 0 (V0 m) [hostOps1] c main_v9 : S2x2048x1024.Idx → Elt F .f32)
      = shapeCast S2x2048x1024 ((dats m 0 c).arrAt 7 cfg0.N : S4096x1024.Idx → Elt F .f32)
          shapeCasts_S4096x1024_S2x2048x1024 := by
  unfold Pipeline.afterTail₀
  show StableHlo.after hostOps1 _ (Proc.devRef .tc main_v9) = _
  after_results
  rw [Pipeline.withArrays_arr spec0 launch0.win.arr_inj c _ _ 7]
  funext i
  rfl

theorem tail_8 (c : Dev nD) :
    (Pipeline.afterTail₀ cfgs (dats m) 0 (V0 m) [hostOps1] c main_v10 : S2x2048x1024.Idx → Elt F .f32)
      = shapeCast S2x2048x1024 ((dats m 0 c).arrAt 8 cfg0.N : S4096x1024.Idx → Elt F .f32)
          shapeCasts_S4096x1024_S2x2048x1024 := by
  unfold Pipeline.afterTail₀
  show StableHlo.after hostOps1 _ (Proc.devRef .tc main_v10) = _
  after_results
  rw [Pipeline.withArrays_arr spec0 launch0.win.arr_inj c _ _ 8]
  funext i
  rfl

theorem tail_9 (c : Dev nD) :
    (Pipeline.afterTail₀ cfgs (dats m) 0 (V0 m) [hostOps1] c main_v11 : S2x2048x1024.Idx → Elt F .f32)
      = shapeCast S2x2048x1024 ((dats m 0 c).arrAt 9 cfg0.N : S4096x1024.Idx → Elt F .f32)
          shapeCasts_S4096x1024_S2x2048x1024 := by
  unfold Pipeline.afterTail₀
  show StableHlo.after hostOps1 _ (Proc.devRef .tc main_v11) = _
  after_results
  rw [Pipeline.withArrays_arr spec0 launch0.win.arr_inj c _ _ 9]
  funext i
  rfl

theorem tail_10 (c : Dev nD) :
    (Pipeline.afterTail₀ cfgs (dats m) 0 (V0 m) [hostOps1] c main_v12 : S2x2048x4096.Idx → Elt F .f32)
      = shapeCast S2x2048x4096 ((dats m 0 c).arrAt 10 cfg0.N : S4096x4096.Idx → Elt F .f32)
          shapeCasts_S4096x4096_S2x2048x4096 := by
  unfold Pipeline.afterTail₀
  show StableHlo.after hostOps1 _ (Proc.devRef .tc main_v12) = _
  after_results
  rw [Pipeline.withArrays_arr spec0 launch0.win.arr_inj c _ _ 10]
  funext i
  rfl

theorem tail_11 (c : Dev nD) :
    (Pipeline.afterTail₀ cfgs (dats m) 0 (V0 m) [hostOps1] c main_v13 : S2x2048x4096.Idx → Elt F .f32)
      = shapeCast S2x2048x4096 ((dats m 0 c).arrAt 11 cfg0.N : S4096x4096.Idx → Elt F .f32)
          shapeCasts_S4096x4096_S2x2048x4096 := by
  unfold Pipeline.afterTail₀
  show StableHlo.after hostOps1 _ (Proc.devRef .tc main_v13) = _
  after_results
  rw [Pipeline.withArrays_arr spec0 launch0.win.arr_inj c _ _ 11]
  funext i
  rfl

end Cert.KernelIdeal.Fr

end
-- ==== Proof.KI.Val.Final.lean ====
import proofs.«118228_g28106265985563_cont_9to1_1615_5_alg».proof.Proof.KI.Frame
import proofs.«118228_g28106265985563_cont_9to1_1615_5_alg».proof.Proof.KI.Val.BlockVal
import proofs.«118228_g28106265985563_cont_9to1_1615_5_alg».proof.Proof.KI.Val.Cover
import proofs.«118228_g28106265985563_cont_9to1_1615_5_alg».proof.Proof.KI.Val.Tail
import proofs.«118228_g28106265985563_cont_9to1_1615_5_alg».proof.Proof.Val.Prefix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

def G4 (c : Dev nD) : S4096x1024.Idx → EReal := fun j =>
  Cert.ReferenceIdeal.Read.val_main_v16 (F := Ideal) (m ((c : Thread nD τ).loc main_arg0)) (m ((c : Thread nD τ).loc main_arg1)) (m ((c : Thread nD τ).loc main_arg2)) (m ((c : Thread nD τ).loc main_arg7))
    (ValueIdx.ix3 ⟨(j 0).val / 2048, by have := (j 0).isLt; exact Nat.div_lt_of_lt_mul (by simpa using this)⟩ ⟨(j 0).val % 2048, Nat.mod_lt _ (by norm_num)⟩ (j 1))

theorem flushed_eq_4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  funext j
  obtain ⟨r, n, rfl⟩ : ∃ (r : Fin 256) (n : Fin 1024), j = ValueIdx.ix2 r n := ⟨j 0, j 1, ValueIdx.eq_ix2 j⟩
  rw [read_blk_4]
  exact blockval_4 m c t r n

theorem final_4 (c : Dev nD) : (dats m 0 c).arrAt 4 cfg0.N = G4 m c :=
  (dats m 0 c).arrAt_eq_of_cover 4 (G4 m c) (fun t _ => flushed_eq_4 m c t) cover_4

theorem result_4 (c : Dev nD) :
    (Pipeline.afterTail₀ cfgs (dats m) 0 (V0 m) [hostOps1] c main_v6 : S2x2048x1024.Idx → EReal)
      = Cert.ReferenceIdeal.Read.val_main_v16 (F := Ideal) (m ((c : Thread nD τ).loc main_arg0)) (m ((c : Thread nD τ).loc main_arg1)) (m ((c : Thread nD τ).loc main_arg2)) (m ((c : Thread nD τ).loc main_arg7)) := by
  rw [tail_4, final_4]
  funext i
  obtain ⟨b, s, n, rfl⟩ : ∃ (b : Fin 2) (s : Fin 2048) (n : Fin 1024), i = ValueIdx.ix3 b s n := ⟨i 0, i 1, i 2, ValueIdx.eq_ix3 i⟩
  rw [Cert.Val.result_apply_1024]
  show Cert.ReferenceIdeal.Read.val_main_v16 (F := Ideal) _ _ _ _ (ValueIdx.ix3 _ _ n) = _
  congr 1
  funext a
  apply Fin.ext
  match a with
  | ⟨0, _⟩ => show (2048 * b.val + s.val) / 2048 = b.val; have := s.isLt; omega
  | ⟨1, _⟩ => show (2048 * b.val + s.val) % 2048 = s.val; have := s.isLt; omega
  | ⟨2, _⟩ => rfl

def G5 (c : Dev nD) : S4096x1024.Idx → EReal := fun j =>
  Cert.ReferenceIdeal.Read.val_main_v18 (F := Ideal) (m ((c : Thread nD τ).loc main_arg0)) (m ((c : Thread nD τ).loc main_arg1)) (m ((c : Thread nD τ).loc main_arg2)) (m ((c : Thread nD τ).loc main_arg7))
    (ValueIdx.ix3 ⟨(j 0).val / 2048, by have := (j 0).isLt; exact Nat.div_lt_of_lt_mul (by simpa using this)⟩ ⟨(j 0).val % 2048, Nat.mod_lt _ (by norm_num)⟩ (j 1))

theorem flushed_eq_5 (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  funext j
  obtain ⟨r, n, rfl⟩ : ∃ (r : Fin 256) (n : Fin 1024), j = ValueIdx.ix2 r n := ⟨j 0, j 1, ValueIdx.eq_ix2 j⟩
  rw [read_blk_5]
  exact blockval_5 m c t r n

theorem final_5 (c : Dev nD) : (dats m 0 c).arrAt 5 cfg0.N = G5 m c :=
  (dats m 0 c).arrAt_eq_of_cover 5 (G5 m c) (fun t _ => flushed_eq_5 m c t) cover_5

theorem result_5 (c : Dev nD) :
    (Pipeline.afterTail₀ cfgs (dats m) 0 (V0 m) [hostOps1] c main_v7 : S2x2048x1024.Idx → EReal)
      = Cert.ReferenceIdeal.Read.val_main_v18 (F := Ideal) (m ((c : Thread nD τ).loc main_arg0)) (m ((c : Thread nD τ).loc main_arg1)) (m ((c : Thread nD τ).loc main_arg2)) (m ((c : Thread nD τ).loc main_arg7)) := by
  rw [tail_5, final_5]
  funext i
  obtain ⟨b, s, n, rfl⟩ : ∃ (b : Fin 2) (s : Fin 2048) (n : Fin 1024), i = ValueIdx.ix3 b s n := ⟨i 0, i 1, i 2, ValueIdx.eq_ix3 i⟩
  rw [Cert.Val.result_apply_1024]
  show Cert.ReferenceIdeal.Read.val_main_v18 (F := Ideal) _ _ _ _ (ValueIdx.ix3 _ _ n) = _
  congr 1
  funext a
  apply Fin.ext
  match a with
  | ⟨0, _⟩ => show (2048 * b.val + s.val) / 2048 = b.val; have := s.isLt; omega
  | ⟨1, _⟩ => show (2048 * b.val + s.val) % 2048 = s.val; have := s.isLt; omega
  | ⟨2, _⟩ => rfl

def G6 (c : Dev nD) : S4096x1024.Idx → EReal := fun j =>
  Cert.ReferenceIdeal.Read.val_main_v20 (F := Ideal) (m ((c : Thread nD τ).loc main_arg0)) (m ((c : Thread nD τ).loc main_arg1)) (m ((c : Thread nD τ).loc main_arg2)) (m ((c : Thread nD τ).loc main_arg7))
    (ValueIdx.ix3 ⟨(j 0).val / 2048, by have := (j 0).isLt; exact Nat.div_lt_of_lt_mul (by simpa using this)⟩ ⟨(j 0).val % 2048, Nat.mod_lt _ (by norm_num)⟩ (j 1))

theorem flushed_eq_6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext j
  obtain ⟨r, n, rfl⟩ : ∃ (r : Fin 256) (n : Fin 1024), j = ValueIdx.ix2 r n := ⟨j 0, j 1, ValueIdx.eq_ix2 j⟩
  rw [read_blk_6]
  exact blockval_6 m c t r n

theorem final_6 (c : Dev nD) : (dats m 0 c).arrAt 6 cfg0.N = G6 m c :=
  (dats m 0 c).arrAt_eq_of_cover 6 (G6 m c) (fun t _ => flushed_eq_6 m c t) cover_6

theorem result_6 (c : Dev nD) :
    (Pipeline.afterTail₀ cfgs (dats m) 0 (V0 m) [hostOps1] c main_v8 : S2x2048x1024.Idx → EReal)
      = Cert.ReferenceIdeal.Read.val_main_v20 (F := Ideal) (m ((c : Thread nD τ).loc main_arg0)) (m ((c : Thread nD τ).loc main_arg1)) (m ((c : Thread nD τ).loc main_arg2)) (m ((c : Thread nD τ).loc main_arg7)) := by
  rw [tail_6, final_6]
  funext i
  obtain ⟨b, s, n, rfl⟩ : ∃ (b : Fin 2) (s : Fin 2048) (n : Fin 1024), i = ValueIdx.ix3 b s n := ⟨i 0, i 1, i 2, ValueIdx.eq_ix3 i⟩
  rw [Cert.Val.result_apply_1024]
  show Cert.ReferenceIdeal.Read.val_main_v20 (F := Ideal) _ _ _ _ (ValueIdx.ix3 _ _ n) = _
  congr 1
  funext a
  apply Fin.ext
  match a with
  | ⟨0, _⟩ => show (2048 * b.val + s.val) / 2048 = b.val; have := s.isLt; omega
  | ⟨1, _⟩ => show (2048 * b.val + s.val) % 2048 = s.val; have := s.isLt; omega
  | ⟨2, _⟩ => rfl

def G7 (c : Dev nD) : S4096x1024.Idx → EReal := fun j =>
  Cert.ReferenceIdeal.Read.val_main_v22 (F := Ideal) (m ((c : Thread nD τ).loc main_arg0)) (m ((c : Thread nD τ).loc main_arg1)) (m ((c : Thread nD τ).loc main_arg2)) (m ((c : Thread nD τ).loc main_arg7))
    (ValueIdx.ix3 ⟨(j 0).val / 2048, by have := (j 0).isLt; exact Nat.div_lt_of_lt_mul (by simpa using this)⟩ ⟨(j 0).val % 2048, Nat.mod_lt _ (by norm_num)⟩ (j 1))

theorem flushed_eq_7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext j
  obtain ⟨r, n, rfl⟩ : ∃ (r : Fin 256) (n : Fin 1024), j = ValueIdx.ix2 r n := ⟨j 0, j 1, ValueIdx.eq_ix2 j⟩
  rw [read_blk_7]
  exact blockval_7 m c t r n

theorem final_7 (c : Dev nD) : (dats m 0 c).arrAt 7 cfg0.N = G7 m c :=
  (dats m 0 c).arrAt_eq_of_cover 7 (G7 m c) (fun t _ => flushed_eq_7 m c t) cover_7

theorem result_7 (c : Dev nD) :
    (Pipeline.afterTail₀ cfgs (dats m) 0 (V0 m) [hostOps1] c main_v9 : S2x2048x1024.Idx → EReal)
      = Cert.ReferenceIdeal.Read.val_main_v22 (F := Ideal) (m ((c : Thread nD τ).loc main_arg0)) (m ((c : Thread nD τ).loc main_arg1)) (m ((c : Thread nD τ).loc main_arg2)) (m ((c : Thread nD τ).loc main_arg7)) := by
  rw [tail_7, final_7]
  funext i
  obtain ⟨b, s, n, rfl⟩ : ∃ (b : Fin 2) (s : Fin 2048) (n : Fin 1024), i = ValueIdx.ix3 b s n := ⟨i 0, i 1, i 2, ValueIdx.eq_ix3 i⟩
  rw [Cert.Val.result_apply_1024]
  show Cert.ReferenceIdeal.Read.val_main_v22 (F := Ideal) _ _ _ _ (ValueIdx.ix3 _ _ n) = _
  congr 1
  funext a
  apply Fin.ext
  match a with
  | ⟨0, _⟩ => show (2048 * b.val + s.val) / 2048 = b.val; have := s.isLt; omega
  | ⟨1, _⟩ => show (2048 * b.val + s.val) % 2048 = s.val; have := s.isLt; omega
  | ⟨2, _⟩ => rfl

def G8 (c : Dev nD) : S4096x1024.Idx → EReal := fun j =>
  Cert.ReferenceIdeal.Read.val_main_v24 (F := Ideal) (m ((c : Thread nD τ).loc main_arg0)) (m ((c : Thread nD τ).loc main_arg1)) (m ((c : Thread nD τ).loc main_arg2)) (m ((c : Thread nD τ).loc main_arg7))
    (ValueIdx.ix3 ⟨(j 0).val / 2048, by have := (j 0).isLt; exact Nat.div_lt_of_lt_mul (by simpa using this)⟩ ⟨(j 0).val % 2048, Nat.mod_lt _ (by norm_num)⟩ (j 1))

theorem flushed_eq_8 (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  funext j
  obtain ⟨r, n, rfl⟩ : ∃ (r : Fin 256) (n : Fin 1024), j = ValueIdx.ix2 r n := ⟨j 0, j 1, ValueIdx.eq_ix2 j⟩
  rw [read_blk_8]
  exact blockval_8 m c t r n

theorem final_8 (c : Dev nD) : (dats m 0 c).arrAt 8 cfg0.N = G8 m c :=
  (dats m 0 c).arrAt_eq_of_cover 8 (G8 m c) (fun t _ => flushed_eq_8 m c t) cover_8

theorem result_8 (c : Dev nD) :
    (Pipeline.afterTail₀ cfgs (dats m) 0 (V0 m) [hostOps1] c main_v10 : S2x2048x1024.Idx → EReal)
      = Cert.ReferenceIdeal.Read.val_main_v24 (F := Ideal) (m ((c : Thread nD τ).loc main_arg0)) (m ((c : Thread nD τ).loc main_arg1)) (m ((c : Thread nD τ).loc main_arg2)) (m ((c : Thread nD τ).loc main_arg7)) := by
  rw [tail_8, final_8]
  funext i
  obtain ⟨b, s, n, rfl⟩ : ∃ (b : Fin 2) (s : Fin 2048) (n : Fin 1024), i = ValueIdx.ix3 b s n := ⟨i 0, i 1, i 2, ValueIdx.eq_ix3 i⟩
  rw [Cert.Val.result_apply_1024]
  show Cert.ReferenceIdeal.Read.val_main_v24 (F := Ideal) _ _ _ _ (ValueIdx.ix3 _ _ n) = _
  congr 1
  funext a
  apply Fin.ext
  match a with
  | ⟨0, _⟩ => show (2048 * b.val + s.val) / 2048 = b.val; have := s.isLt; omega
  | ⟨1, _⟩ => show (2048 * b.val + s.val) % 2048 = s.val; have := s.isLt; omega
  | ⟨2, _⟩ => rfl

def G9 (c : Dev nD) : S4096x1024.Idx → EReal := fun j =>
  Cert.ReferenceIdeal.Read.val_main_v26 (F := Ideal) (m ((c : Thread nD τ).loc main_arg0)) (m ((c : Thread nD τ).loc main_arg1)) (m ((c : Thread nD τ).loc main_arg2)) (m ((c : Thread nD τ).loc main_arg7))
    (ValueIdx.ix3 ⟨(j 0).val / 2048, by have := (j 0).isLt; exact Nat.div_lt_of_lt_mul (by simpa using this)⟩ ⟨(j 0).val % 2048, Nat.mod_lt _ (by norm_num)⟩ (j 1))

theorem flushed_eq_9 (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  funext j
  obtain ⟨r, n, rfl⟩ : ∃ (r : Fin 256) (n : Fin 1024), j = ValueIdx.ix2 r n := ⟨j 0, j 1, ValueIdx.eq_ix2 j⟩
  rw [read_blk_9]
  exact blockval_9 m c t r n

theorem final_9 (c : Dev nD) : (dats m 0 c).arrAt 9 cfg0.N = G9 m c :=
  (dats m 0 c).arrAt_eq_of_cover 9 (G9 m c) (fun t _ => flushed_eq_9 m c t) cover_9

theorem result_9 (c : Dev nD) :
    (Pipeline.afterTail₀ cfgs (dats m) 0 (V0 m) [hostOps1] c main_v11 : S2x2048x1024.Idx → EReal)
      = Cert.ReferenceIdeal.Read.val_main_v26 (F := Ideal) (m ((c : Thread nD τ).loc main_arg0)) (m ((c : Thread nD τ).loc main_arg1)) (m ((c : Thread nD τ).loc main_arg2)) (m ((c : Thread nD τ).loc main_arg7)) := by
  rw [tail_9, final_9]
  funext i
  obtain ⟨b, s, n, rfl⟩ : ∃ (b : Fin 2) (s : Fin 2048) (n : Fin 1024), i = ValueIdx.ix3 b s n := ⟨i 0, i 1, i 2, ValueIdx.eq_ix3 i⟩
  rw [Cert.Val.result_apply_1024]
  show Cert.ReferenceIdeal.Read.val_main_v26 (F := Ideal) _ _ _ _ (ValueIdx.ix3 _ _ n) = _
  congr 1
  funext a
  apply Fin.ext
  match a with
  | ⟨0, _⟩ => show (2048 * b.val + s.val) / 2048 = b.val; have := s.isLt; omega
  | ⟨1, _⟩ => show (2048 * b.val + s.val) % 2048 = s.val; have := s.isLt; omega
  | ⟨2, _⟩ => rfl

def G10 (c : Dev nD) : S4096x4096.Idx → EReal := fun j =>
  Cert.ReferenceIdeal.Read.val_main_v32 (F := Ideal) (m ((c : Thread nD τ).loc main_arg0)) (m ((c : Thread nD τ).loc main_arg3)) (m ((c : Thread nD τ).loc main_arg4)) (m ((c : Thread nD τ).loc main_arg7))
    (ValueIdx.ix3 ⟨(j 0).val / 2048, by have := (j 0).isLt; exact Nat.div_lt_of_lt_mul (by simpa using this)⟩ ⟨(j 0).val % 2048, Nat.mod_lt _ (by norm_num)⟩ (j 1))

theorem flushed_eq_10 (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  funext j
  obtain ⟨r, n, rfl⟩ : ∃ (r : Fin 256) (n : Fin 4096), j = ValueIdx.ix2 r n := ⟨j 0, j 1, ValueIdx.eq_ix2 j⟩
  rw [read_blk_10]
  exact blockval_10 m c t r n

theorem final_10 (c : Dev nD) : (dats m 0 c).arrAt 10 cfg0.N = G10 m c :=
  (dats m 0 c).arrAt_eq_of_cover 10 (G10 m c) (fun t _ => flushed_eq_10 m c t) cover_10

theorem result_10 (c : Dev nD) :
    (Pipeline.afterTail₀ cfgs (dats m) 0 (V0 m) [hostOps1] c main_v12 : S2x2048x4096.Idx → EReal)
      = Cert.ReferenceIdeal.Read.val_main_v32 (F := Ideal) (m ((c : Thread nD τ).loc main_arg0)) (m ((c : Thread nD τ).loc main_arg3)) (m ((c : Thread nD τ).loc main_arg4)) (m ((c : Thread nD τ).loc main_arg7)) := by
  rw [tail_10, final_10]
  funext i
  obtain ⟨b, s, n, rfl⟩ : ∃ (b : Fin 2) (s : Fin 2048) (n : Fin 4096), i = ValueIdx.ix3 b s n := ⟨i 0, i 1, i 2, ValueIdx.eq_ix3 i⟩
  rw [Cert.Val.result_apply_4096]
  show Cert.ReferenceIdeal.Read.val_main_v32 (F := Ideal) _ _ _ _ (ValueIdx.ix3 _ _ n) = _
  congr 1
  funext a
  apply Fin.ext
  match a with
  | ⟨0, _⟩ => show (2048 * b.val + s.val) / 2048 = b.val; have := s.isLt; omega
  | ⟨1, _⟩ => show (2048 * b.val + s.val) % 2048 = s.val; have := s.isLt; omega
  | ⟨2, _⟩ => rfl

def G11 (c : Dev nD) : S4096x4096.Idx → EReal := fun j =>
  Cert.ReferenceIdeal.Read.val_main_v38 (F := Ideal) (m ((c : Thread nD τ).loc main_arg0)) (m ((c : Thread nD τ).loc main_arg5)) (m ((c : Thread nD τ).loc main_arg6)) (m ((c : Thread nD τ).loc main_arg7))
    (ValueIdx.ix3 ⟨(j 0).val / 2048, by have := (j 0).isLt; exact Nat.div_lt_of_lt_mul (by simpa using this)⟩ ⟨(j 0).val % 2048, Nat.mod_lt _ (by norm_num)⟩ (j 1))

theorem flushed_eq_11 (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  funext j
  obtain ⟨r, n, rfl⟩ : ∃ (r : Fin 256) (n : Fin 4096), j = ValueIdx.ix2 r n := ⟨j 0, j 1, ValueIdx.eq_ix2 j⟩
  rw [read_blk_11]
  exact blockval_11 m c t r n

theorem final_11 (c : Dev nD) : (dats m 0 c).arrAt 11 cfg0.N = G11 m c :=
  (dats m 0 c).arrAt_eq_of_cover 11 (G11 m c) (fun t _ => flushed_eq_11 m c t) cover_11

theorem result_11 (c : Dev nD) :
    (Pipeline.afterTail₀ cfgs (dats m) 0 (V0 m) [hostOps1] c main_v13 : S2x2048x4096.Idx → EReal)
      = Cert.ReferenceIdeal.Read.val_main_v38 (F := Ideal) (m ((c : Thread nD τ).loc main_arg0)) (m ((c : Thread nD τ).loc main_arg5)) (m ((c : Thread nD τ).loc main_arg6)) (m ((c : Thread nD τ).loc main_arg7)) := by
  rw [tail_11, final_11]
  funext i
  obtain ⟨b, s, n, rfl⟩ : ∃ (b : Fin 2) (s : Fin 2048) (n : Fin 4096), i = ValueIdx.ix3 b s n := ⟨i 0, i 1, i 2, ValueIdx.eq_ix3 i⟩
  rw [Cert.Val.result_apply_4096]
  show Cert.ReferenceIdeal.Read.val_main_v38 (F := Ideal) _ _ _ _ (ValueIdx.ix3 _ _ n) = _
  congr 1
  funext a
  apply Fin.ext
  match a with
  | ⟨0, _⟩ => show (2048 * b.val + s.val) / 2048 = b.val; have := s.isLt; omega
  | ⟨1, _⟩ => show (2048 * b.val + s.val) % 2048 = s.val; have := s.isLt; omega
  | ⟨2, _⟩ => rfl

theorem value_run : θ_run defs (onTc (τ := τ) (main (F := Ideal))) ⟨m, fun _ => 0, ρ⟩ (fun r => ∀ c : Dev nD,
      r.2.mem ((c.tc : Thread nD τ).loc main_v6) = Cert.ReferenceIdeal.Read.val_main_v16 (F := Ideal) (m ((c : Thread nD τ).loc main_arg0)) (m ((c : Thread nD τ).loc main_arg1)) (m ((c : Thread nD τ).loc main_arg2)) (m ((c : Thread nD τ).loc main_arg7))
      ∧ r.2.mem ((c.tc : Thread nD τ).loc main_v7) = Cert.ReferenceIdeal.Read.val_main_v18 (F := Ideal) (m ((c : Thread nD τ).loc main_arg0)) (m ((c : Thread nD τ).loc main_arg1)) (m ((c : Thread nD τ).loc main_arg2)) (m ((c : Thread nD τ).loc main_arg7))
      ∧ r.2.mem ((c.tc : Thread nD τ).loc main_v8) = Cert.ReferenceIdeal.Read.val_main_v20 (F := Ideal) (m ((c : Thread nD τ).loc main_arg0)) (m ((c : Thread nD τ).loc main_arg1)) (m ((c : Thread nD τ).loc main_arg2)) (m ((c : Thread nD τ).loc main_arg7))
      ∧ r.2.mem ((c.tc : Thread nD τ).loc main_v9) = Cert.ReferenceIdeal.Read.val_main_v22 (F := Ideal) (m ((c : Thread nD τ).loc main_arg0)) (m ((c : Thread nD τ).loc main_arg1)) (m ((c : Thread nD τ).loc main_arg2)) (m ((c : Thread nD τ).loc main_arg7))
      ∧ r.2.mem ((c.tc : Thread nD τ).loc main_v10) = Cert.ReferenceIdeal.Read.val_main_v24 (F := Ideal) (m ((c : Thread nD τ).loc main_arg0)) (m ((c : Thread nD τ).loc main_arg1)) (m ((c : Thread nD τ).loc main_arg2)) (m ((c : Thread nD τ).loc main_arg7))
      ∧ r.2.mem ((c.tc : Thread nD τ).loc main_v11) = Cert.ReferenceIdeal.Read.val_main_v26 (F := Ideal) (m ((c : Thread nD τ).loc main_arg0)) (m ((c : Thread nD τ).loc main_arg1)) (m ((c : Thread nD τ).loc main_arg2)) (m ((c : Thread nD τ).loc main_arg7))
      ∧ r.2.mem ((c.tc : Thread nD τ).loc main_v12) = Cert.ReferenceIdeal.Read.val_main_v32 (F := Ideal) (m ((c : Thread nD τ).loc main_arg0)) (m ((c : Thread nD τ).loc main_arg3)) (m ((c : Thread nD τ).loc main_arg4)) (m ((c : Thread nD τ).loc main_arg7))
      ∧ r.2.mem ((c.tc : Thread nD τ).loc main_v13) = Cert.ReferenceIdeal.Read.val_main_v38 (F := Ideal) (m ((c : Thread nD τ).loc main_arg0)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).2 main_v6 (Pipeline.mem_restRefs_of main_v6 (by decide) (by decide))).trans (result_4 m c),
      ((h c).2 main_v7 (Pipeline.mem_restRefs_of main_v7 (by decide) (by decide))).trans (result_5 m c),
      ((h c).2 main_v8 (Pipeline.mem_restRefs_of main_v8 (by decide) (by decide))).trans (result_6 m c),
      ((h c).2 main_v9 (Pipeline.mem_restRefs_of main_v9 (by decide) (by decide))).trans (result_7 m c),
      ((h c).2 main_v10 (Pipeline.mem_restRefs_of main_v10 (by decide) (by decide))).trans (result_8 m c),
      ((h c).2 main_v11 (Pipeline.mem_restRefs_of main_v11 (by decide) (by decide))).trans (result_9 m c),
      ((h c).2 main_v12 (Pipeline.mem_restRefs_of main_v12 (by decide) (by decide))).trans (result_10 m c),
      ((h c).2 main_v13 (Pipeline.mem_restRefs_of main_v13 (by decide) (by decide))).trans (result_11 m c),
      ((h c).2 main_arg0 (Pipeline.mem_restRefs_of main_arg0 (by decide) (by decide))).trans (W_arg m (dats m) c (b := main_arg0) (by decide) (by decide)),
      ((h c).2 main_arg1 (Pipeline.mem_restRefs_of main_arg1 (by decide) (by decide))).trans (W_arg m (dats m) c (b := main_arg1) (by decide) (by decide)),
      ((h c).2 main_arg2 (Pipeline.mem_restRefs_of main_arg2 (by decide) (by decide))).trans (W_arg m (dats m) c (b := main_arg2) (by decide) (by decide)),
      ((h c).2 main_arg3 (Pipeline.mem_restRefs_of main_arg3 (by decide) (by decide))).trans (W_arg m (dats m) c (b := main_arg3) (by decide) (by decide)),
      ((h c).2 main_arg4 (Pipeline.mem_restRefs_of main_arg4 (by decide) (by decide))).trans (W_arg m (dats m) c (b := main_arg4) (by decide) (by decide)),
      ((h c).2 main_arg5 (Pipeline.mem_restRefs_of main_arg5 (by decide) (by decide))).trans (W_arg m (dats m) c (b := main_arg5) (by decide) (by decide)),
      ((h c).2 main_arg6 (Pipeline.mem_restRefs_of main_arg6 (by decide) (by decide))).trans (W_arg m (dats m) c (b := main_arg6) (by decide) (by decide)),
      ((h c).1 3).trans (((dats m 0 c).arrAt_in 3 rfl _).trans ((A_eq m c 3).trans (V_arg m c (b := main_arg7) (by decide))))⟩)
    (run_main (F := Ideal) m ρ)

end Cert.KernelIdeal.Fr

end
-- ==== Proof.lean ====
import proofs.«118228_g28106265985563_cont_9to1_1615_5_alg».proof.Defs
import proofs.«118228_g28106265985563_cont_9to1_1615_5_alg».proof.Proof.K.Frame
import proofs.«118228_g28106265985563_cont_9to1_1615_5_alg».proof.Proof.KI.Frame
import proofs.«118228_g28106265985563_cont_9to1_1615_5_alg».proof.Proof.KI.Val.Final
import proofs.«118228_g28106265985563_cont_9to1_1615_5_alg».proof.Proof.Ref.Base
import proofs.«118228_g28106265985563_cont_9to1_1615_5_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2.2.2.2.2.2.2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, _, _, _, _, _, _, _, Cert.KernelIdeal.Fr.value_run m ρ, ?_⟩
  refine (θ_run Cert.ReferenceIdeal.defs _ _).mono (fun _ h c => ?_) (Cert.ReferenceIdeal.Value.run (F := Ideal) m' ρ')
  obtain ⟨e0, e1, e2, e3, e4, e5, e6, e7⟩ := hagree c
  obtain ⟨r0, r1, r2, r3, r4, r5, r6, r7, k⟩ := h c
  exact ⟨r0.trans ((Cert.ReferenceIdeal.Read.val_main_v16_eq (F := Ideal) _ _ _ _).trans (by rw [e0, e1, e2, e7])),
    r1.trans ((Cert.ReferenceIdeal.Read.val_main_v18_eq (F := Ideal) _ _ _ _).trans (by rw [e0, e1, e2, e7])),
    r2.trans ((Cert.ReferenceIdeal.Read.val_main_v20_eq (F := Ideal) _ _ _ _).trans (by rw [e0, e1, e2, e7])),
    r3.trans ((Cert.ReferenceIdeal.Read.val_main_v22_eq (F := Ideal) _ _ _ _).trans (by rw [e0, e1, e2, e7])),
    r4.trans ((Cert.ReferenceIdeal.Read.val_main_v24_eq (F := Ideal) _ _ _ _).trans (by rw [e0, e1, e2, e7])),
    r5.trans ((Cert.ReferenceIdeal.Read.val_main_v26_eq (F := Ideal) _ _ _ _).trans (by rw [e0, e1, e2, e7])),
    r6.trans ((Cert.ReferenceIdeal.Read.val_main_v32_eq (F := Ideal) _ _ _ _).trans (by rw [e0, e3, e4, e7])),
    r7.trans ((Cert.ReferenceIdeal.Read.val_main_v38_eq (F := Ideal) _ _ _ _).trans (by rw [e0, e5, e6, e7])),
    k⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
